-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x16384 : Shape := ⟨2, ![16384, 16384]⟩
abbrev S64x32 : Shape := ⟨2, ![64, 32]⟩
abbrev S32 : Shape := ⟨1, ![32]⟩
abbrev S32x32 : Shape := ⟨2, ![32, 32]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S32x32 .f32) (main_arg12 : FVec F S64x32 .f32) (main_arg13 : FVec F S32 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x32 .f32 := Host.absf main_arg11
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S64x32 .f32 := Host.absf main_arg12
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  let main_v64 : FVec F S32 .f32 := Host.absf main_arg13
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_v63 main_v67

def fn_part2 {F : FTy → Type} [FloatOps F] (main_arg7 : FVec F S32 .f32) (main_arg8 : FVec F S64x32 .f32) (main_arg9 : FVec F S64x32 .f32) (main_arg10 : FVec F S32 .f32) (main_arg11 : FVec F S32x32 .f32) (main_arg12 : FVec F S64x32 .f32) (main_arg13 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S64x32 .f32 := Host.absf main_arg8
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S64x32 .f32 := Host.absf main_arg9
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_arg13 main_v48 main_v49 main_v50

def fn_part1 {F : FTy → Type} [FloatOps F] (main_arg4 : FVec F S32 .f32) (main_arg5 : FVec F S32x32 .f32) (main_arg6 : FVec F S64x32 .f32) (main_arg7 : FVec F S32 .f32) (main_arg8 : FVec F S64x32 .f32) (main_arg9 : FVec F S64x32 .f32) (main_arg10 : FVec F S32 .f32) (main_arg11 : FVec F S32x32 .f32) (main_arg12 : FVec F S64x32 .f32) (main_arg13 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S64x32 .f32 := Host.absf main_arg6
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S16384x64 .f32) (main_arg1 : FVec F S16384x16384 .f32) (main_arg2 : FVec F S64x32 .f32) (main_arg3 : FVec F S64x32 .f32) (main_arg4 : FVec F S32 .f32) (main_arg5 : FVec F S32x32 .f32) (main_arg6 : FVec F S64x32 .f32) (main_arg7 : FVec F S32 .f32) (main_arg8 : FVec F S64x32 .f32) (main_arg9 : FVec F S64x32 .f32) (main_arg10 : FVec F S32 .f32) (main_arg11 : FVec F S32x32 .f32) (main_arg12 : FVec F S64x32 .f32) (main_arg13 : FVec F S32 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S64x32 .f32 := Host.absf main_arg2
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_arg5 main_arg6 main_arg7 main_arg8 main_arg9 main_arg10 main_arg11 main_arg12 main_arg13 main_v13 main_v16
-- ==== Kernel.lean ====
abbrev S16384x64 : Shape := ⟨2, ![16384, 64]⟩
abbrev S16384x16384 : Shape := ⟨2, ![16384, 16384]⟩
abbrev S64x32 : Shape := ⟨2, ![64, 32]⟩
abbrev S32 : Shape := ⟨1, ![32]⟩
abbrev S32x32 : Shape := ⟨2, ![32, 32]⟩
abbrev S1024x2048 : Shape := ⟨2, ![1024, 2048]⟩
abbrev S1x32 : Shape := ⟨2, ![1, 32]⟩
abbrev S16384x32 : Shape := ⟨2, ![16384, 32]⟩
abbrev S2048x2048 : Shape := ⟨2, ![2048, 2048]⟩
abbrev S2048x64 : Shape := ⟨2, ![2048, 64]⟩
abbrev S2048x32 : Shape := ⟨2, ![2048, 32]⟩
abbrev S16384x32x1 : Shape := ⟨3, ![16384, 32, 1]⟩
abbrev S16384x32x2 : Shape := ⟨3, ![16384, 32, 2]⟩
abbrev S_ : Shape := ⟨0, ![]⟩

abbrev nBuf : Space → Nat
  | .hbm => 31
  | .vmem => 52
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S64x32, .f32⟩
  | .hbm, ⟨3, _⟩ => ⟨S64x32, .f32⟩
  | .hbm, ⟨4, _⟩ => ⟨S32, .f32⟩
  | .hbm, ⟨5, _⟩ => ⟨S32x32, .f32⟩
  | .hbm, ⟨6, _⟩ => ⟨S64x32, .f32⟩
  | .hbm, ⟨7, _⟩ => ⟨S32, .f32⟩
  | .hbm, ⟨8, _⟩ => ⟨S64x32, .f32⟩
  | .hbm, ⟨9, _⟩ => ⟨S64x32, .f32⟩
  | .hbm, ⟨10, _⟩ => ⟨S32, .f32⟩
  | .hbm, ⟨11, _⟩ => ⟨S32x32, .f32⟩
  | .hbm, ⟨12, _⟩ => ⟨S64x32, .f32⟩
  | .hbm, ⟨13, _⟩ => ⟨S32, .f32⟩
  | .hbm, ⟨14, _⟩ => ⟨S16384x16384, .bf16⟩
  | .hbm, ⟨15, _⟩ => ⟨S1x32, .f32⟩
  | .hbm, ⟨16, _⟩ => ⟨S16384x32, .f32⟩
  | .hbm, ⟨17, _⟩ => ⟨S1x32, .f32⟩
  | .hbm, ⟨18, _⟩ => ⟨S16384x32, .f32⟩
  | .hbm, ⟨19, _⟩ => ⟨S1x32, .f32⟩
  | .hbm, ⟨20, _⟩ => ⟨S16384x32, .f32⟩
  | .hbm, ⟨21, _⟩ => ⟨S1x32, .f32⟩
  | .hbm, ⟨22, _⟩ => ⟨S16384x32, .f32⟩
  | .hbm, ⟨23, _⟩ => ⟨S16384x32x1, .f32⟩
  | .hbm, ⟨24, _⟩ => ⟨S16384x32x1, .f32⟩
  | .hbm, ⟨25, _⟩ => ⟨S16384x32x2, .f32⟩
  | .hbm, ⟨26, _⟩ => ⟨S_, .f32⟩
  | .hbm, ⟨27, _⟩ => ⟨S16384x32, .f32⟩
  | .hbm, ⟨28, _⟩ => ⟨S_, .f32⟩
  | .hbm, ⟨29, _⟩ => ⟨S16384x32, .f32⟩
  | .hbm, ⟨30, _⟩ => ⟨S16384x32, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S2048x2048, .bf16⟩
  | .local _ .vmem, ⟨5, _⟩ => ⟨S2048x2048, .bf16⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | .local _ .vmem, ⟨9, _⟩ => ⟨S2048x64, .f32⟩
  | .local _ .vmem, ⟨10, _⟩ => ⟨S64x32, .f32⟩
  | .local _ .vmem, ⟨11, _⟩ => ⟨S64x32, .f32⟩
  | .local _ .vmem, ⟨12, _⟩ => ⟨S1x32, .f32⟩
  | .local _ .vmem, ⟨13, _⟩ => ⟨S2048x32, .f32⟩
  | .local _ .vmem, ⟨14, _⟩ => ⟨S2048x32, .f32⟩
  | .local _ .vmem, ⟨15, _⟩ => ⟨S2048x32, .f32⟩
  | .local _ .vmem, ⟨16, _⟩ => ⟨S2048x2048, .bf16⟩
  | .local _ .vmem, ⟨17, _⟩ => ⟨S2048x2048, .bf16⟩
  | .local _ .vmem, ⟨18, _⟩ => ⟨S2048x32, .f32⟩
  | .local _ .vmem, ⟨19, _⟩ => ⟨S2048x32, .f32⟩
  | .local _ .vmem, ⟨20, _⟩ => ⟨S2048x64, .f32⟩
  | .local _ .vmem, ⟨21, _⟩ => ⟨S2048x64, .f32⟩
  | .local _ .vmem, ⟨22, _⟩ => ⟨S32x32, .f32⟩
  | .local _ .vmem, ⟨23, _⟩ => ⟨S64x32, .f32⟩
  | .local _ .vmem, ⟨24, _⟩ => ⟨S1x32, .f32⟩
  | .local _ .vmem, ⟨25, _⟩ => ⟨S2048x32, .f32⟩
  | .local _ .vmem, ⟨26, _⟩ => ⟨S2048x32, .f32⟩
  | .local _ .vmem, ⟨27, _⟩ => ⟨S2048x32, .f32⟩
  | .local _ .vmem, ⟨28, _⟩ => ⟨S2048x2048, .bf16⟩
  | .local _ .vmem, ⟨29, _⟩ => ⟨S2048x2048, .bf16⟩
  | .local _ .vmem, ⟨30, _⟩ => ⟨S2048x64, .f32⟩
  | .local _ .vmem, ⟨31, _⟩ => ⟨S2048x64, .f32⟩
  | .local _ .vmem, ⟨32, _⟩ => ⟨S2048x64, .f32⟩
  | .local _ .vmem, ⟨33, _⟩ => ⟨S2048x64, .f32⟩
  | .local _ .vmem, ⟨34, _⟩ => ⟨S64x32, .f32⟩
  | .local _ .vmem, ⟨35, _⟩ => ⟨S64x32, .f32⟩
  | .local _ .vmem, ⟨36, _⟩ => ⟨S1x32, .f32⟩
  | .local _ .vmem, ⟨37, _⟩ => ⟨S2048x32, .f32⟩
  | .local _ .vmem, ⟨38, _⟩ => ⟨S2048x32, .f32⟩
  | .local _ .vmem, ⟨39, _⟩ => ⟨S2048x32, .f32⟩
  | .local _ .vmem, ⟨40, _⟩ => ⟨S2048x2048, .bf16⟩
  | .local _ .vmem, ⟨41, _⟩ => ⟨S2048x2048, .bf16⟩
  | .local _ .vmem, ⟨42, _⟩ => ⟨S2048x32, .f32⟩
  | .local _ .vmem, ⟨43, _⟩ => ⟨S2048x32, .f32⟩
  | .local _ .vmem, ⟨44, _⟩ => ⟨S2048x64, .f32⟩
  | .local _ .vmem, ⟨45, _⟩ => ⟨S2048x64, .f32⟩
  | .local _ .vmem, ⟨46, _⟩ => ⟨S32x32, .f32⟩
  | .local _ .vmem, ⟨47, _⟩ => ⟨S64x32, .f32⟩
  | .local _ .vmem, ⟨48, _⟩ => ⟨S1x32, .f32⟩
  | .local _ .vmem, ⟨49, _⟩ => ⟨S2048x32, .f32⟩
  | .local _ .vmem, ⟨50, _⟩ => ⟨S2048x32, .f32⟩
  | .local _ .vmem, ⟨51, _⟩ => ⟨S2048x32, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc2_scratch0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg6_1 : Ref sig .tc := ⟨.vmem, 38, rfl⟩
abbrev cc3_scratch0 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg4_0 : Ref sig .tc := ⟨.vmem, 47, rfl⟩
abbrev cc4_stg5_0 : Ref sig .tc := ⟨.vmem, 48, rfl⟩
abbrev cc4_stg6_0 : Ref sig .tc := ⟨.vmem, 49, rfl⟩
abbrev cc4_stg6_1 : Ref sig .tc := ⟨.vmem, 50, rfl⟩
abbrev cc4_scratch0 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem6_1 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem2_1 : DmaSem sig := 42
abbrev cc4_sem3_0 : DmaSem sig := 43
abbrev cc4_sem4_0 : DmaSem sig := 44
abbrev cc4_sem5_0 : DmaSem sig := 45
abbrev cc4_sem6_0 : DmaSem sig := 46
abbrev cc4_sem6_1 : DmaSem sig := 47

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_11 : BitVec 32 := 0#32
  let v19 : BitVec 1 := Scalar.cmpi .ne v18 c0_i32_11
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S2048x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_11 : BitVec 32 := 0#32
  let v20 : BitVec 1 := Scalar.cmpi .ne v19 c0_i32_11
  v20

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S64x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S2048x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_11 : BitVec 32 := 0#32
  let v19 : BitVec 1 := Scalar.cmpi .ne v18 c0_i32_11
  v19

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 1 → Memref sig .tc .vmem S64x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S64x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 2 → Memref sig .tc .vmem S2048x32 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

abbrev grid4 : Pipeline.Grid := ⟨2, ![8, 8], ![false, false]⟩

def k4_cond2 (i : grid4.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_11 : BitVec 32 := 0#32
  let v20 : BitVec 1 := Scalar.cmpi .ne v19 c0_i32_11
  v20

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S2048x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 1 → Memref sig .tc .vmem S32x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S64x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S1x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 2 → Memref sig .tc .vmem S2048x32 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, false]

class Facts₀ : Prop where
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  packedbf16_S1024x2048_S1024x2048_0_0 : (Rect.unit (s := S1024x2048) ![0, 0] S1024x2048.size inb_S1024x2048_S1024x2048_0_0).PackedRows (EltTy.packing .bf16)
  shapeCasts_S32_S1x32 : S32.ShapeCasts S1x32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S2048x64_S2048x64_0_0 : ∀ a, (![0, 0] : Fin 2 → Nat) a + S2048x64.size a ≤ S2048x64.size a
  h_S2048x64 : 0 < S2048x64.numel
  inb_S64x32_S64x32_0_0 : ∀ a, (![0, 0] : Fin 2 → Nat) a + S64x32.size a ≤ S64x32.size a
  h_S64x32 : 0 < S64x32.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S32x32_S32x32_0_0 : ∀ a, (![0, 0] : Fin 2 → Nat) a + S32x32.size a ≤ S32x32.size a
  h_S32x32 : 0 < S32x32.numel
  bcast_S16384x32_S16384x32x1_0_1 : S16384x32.BroadcastsInDim S16384x32x1 (![0, 1] : Fin 2 → Fin S16384x32x1.rank)
  concatenates_S16384x32x1_S16384x32x1_S16384x32x2_d2 : Shape.Concatenates [S16384x32x1, S16384x32x1] S16384x32x2 2
  reducesTo_S16384x32x2_S16384x32_d2 : S16384x32x2.ReducesTo [2] S16384x32
  h_S_ : 0 < S_.numel
  bcast_S_S16384x32 : S_.BroadcastsInDim S16384x32 (![] : Fin 0 → Fin S16384x32.rank)
  dot_S2048x64_S64x32_S2048x32_1_0_0_1_n_n_wf : DotDims.WF S2048x64 S64x32 S2048x32 [1] [0] [0] [1] [] []
  dot_S2048x2048_S2048x32_S2048x32_1_0_0_1_n_n_wf : DotDims.WF S2048x2048 S2048x32 S2048x32 [1] [0] [0] [1] [] []
  dot_S2048x32_S32x32_S2048x32_1_0_0_1_n_n_wf : DotDims.WF S2048x32 S32x32 S2048x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S16384x16384.size a
  hwx0_1 : ∀ i : grid0.Coords, EltTy.bits .bf16 = 32 ∨ (Rect.block (s := S16384x16384) S1024x2048.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S16384x16384.size a
  hwx1_0 : ∀ i : grid1.Coords, EltTy.bits .bf16 = 32 ∨ (Rect.block (s := S16384x16384) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S16384x64.size a
  hwx1_1 : ∀ i : grid1.Coords, EltTy.bits .f32 = 32 ∨ (Rect.block (s := S16384x64) S2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S16384x64.size a
  hwx1_2 : ∀ i : grid1.Coords, EltTy.bits .f32 = 32 ∨ (Rect.block (s := S16384x64) S2048x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x32.size a ≤ S16384x32.size a
  hwx1_6 : ∀ i : grid1.Coords, EltTy.bits .f32 = 32 ∨ (Rect.block (s := S16384x32) S2048x32.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S16384x16384.size a
  hwx2_0 : ∀ i : grid2.Coords, EltTy.bits .bf16 = 32 ∨ (Rect.block (s := S16384x16384) S2048x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x32.size a ≤ S16384x32.size a
  hwx2_1 : ∀ i : grid2.Coords, EltTy.bits .f32 = 32 ∨ (Rect.block (s := S16384x32) S2048x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x64.size a ≤ S16384x64.size a
  hwx2_2 : ∀ i : grid2.Coords, EltTy.bits .f32 = 32 ∨ (Rect.block (s := S16384x64) S2048x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x32.size a ≤ S64x32.size a
  hwx2_4 : ∀ i : grid2.Coords, EltTy.bits .f32 = 32 ∨ (Rect.block (s := S64x32) S64x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2048x32.size a ≤ S16384x32.size a
  hwx2_6 : ∀ i : grid2.Coords, EltTy.bits .f32 = 32 ∨ (Rect.block (s := S16384x32) S2048x32.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x2048.size a ≤ S16384x16384.size a
  hwx3_0 : ∀ i : grid3.Coords, EltTy.bits .bf16 = 32 ∨ (Rect.block (s := S16384x16384) S2048x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x64.size a ≤ S16384x64.size a
  hwx3_1 : ∀ i : grid3.Coords, EltTy.bits .f32 = 32 ∨ (Rect.block (s := S16384x64) S2048x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x64.size a ≤ S16384x64.size a
  hwx3_2 : ∀ i : grid3.Coords, EltTy.bits .f32 = 32 ∨ (Rect.block (s := S16384x64) S2048x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x32.size a ≤ S64x32.size a
  hwx3_3 : ∀ i : grid3.Coords, EltTy.bits .f32 = 32 ∨ (Rect.block (s := S64x32) S64x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x32.size a ≤ S64x32.size a
  hwx3_4 : ∀ i : grid3.Coords, EltTy.bits .f32 = 32 ∨ (Rect.block (s := S64x32) S64x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x32.size a ≤ S1x32.size a
  hwx3_5 : ∀ i : grid3.Coords, EltTy.bits .f32 = 32 ∨ (Rect.block (s := S1x32) S1x32.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2048x32.size a ≤ S16384x32.size a
  hwx3_6 : ∀ i : grid3.Coords, EltTy.bits .f32 = 32 ∨ (Rect.block (s := S16384x32) S2048x32.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x2048.size a ≤ S16384x16384.size a
  hwx4_0 : ∀ i : grid4.Coords, EltTy.bits .bf16 = 32 ∨ (Rect.block (s := S16384x16384) S2048x2048.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x32.size a ≤ S16384x32.size a
  hwx4_1 : ∀ i : grid4.Coords, EltTy.bits .f32 = 32 ∨ (Rect.block (s := S16384x32) S2048x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x64.size a ≤ S16384x64.size a
  hwx4_2 : ∀ i : grid4.Coords, EltTy.bits .f32 = 32 ∨ (Rect.block (s := S16384x64) S2048x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x32.size a ≤ S32x32.size a
  hwx4_3 : ∀ i : grid4.Coords, EltTy.bits .f32 = 32 ∨ (Rect.block (s := S32x32) S32x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x32.size a ≤ S64x32.size a
  hwx4_4 : ∀ i : grid4.Coords, EltTy.bits .f32 = 32 ∨ (Rect.block (s := S64x32) S64x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x32.size a ≤ S1x32.size a
  hwx4_5 : ∀ i : grid4.Coords, EltTy.bits .f32 = 32 ∨ (Rect.block (s := S1x32) S1x32.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2048x32.size a ≤ S16384x32.size a
  hwx4_6 : ∀ i : grid4.Coords, EltTy.bits .f32 = 32 ∨ (Rect.block (s := S16384x32) S2048x32.size (cc4_transform_6 i) (hinb4_6 i)).WholeWords (EltTy.packing .f32)

variable [Facts₀]

def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x2048_S2048x32_S2048x32_1_0_0_1_n_n : DotDims S2048x2048 S2048x32 S2048x32 where
  lhsContracting := [1]
  rhsContracting := [0]
  lhsNonContracting := [0]
  rhsNonContracting := [1]
  lhsBatch := []
  rhsBatch := []
  wf := dot_S2048x2048_S2048x32_S2048x32_1_0_0_1_n_n_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S2048x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v0) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S2048x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S2048x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S64x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v3) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v4) S2048x32.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v0) S2048x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg0) S2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S64x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S64x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v5) S1x32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v6) S2048x32.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun _ => false | 6 => fun i => !(k3_cond2 i == 1#1) | ⟨_ + 7, h⟩ => absurd h (Nat.not_lt.2 (Nat.le_add_left _ _))

abbrev win4_0 : Pipeline.Window sig grid4 :=
  Pipeline.Window.ofSpec (Memref.whole main_v0) S2048x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v6) S2048x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg0) S2048x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S32x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg12) S64x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v7) S1x32.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v8) S2048x32.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun _ => false | 6 => fun i => !(k4_cond2 i == 1#1) | ⟨_ + 7, h⟩ => absurd h (Nat.not_lt.2 (Nat.le_add_left _ _))

class Facts : Prop extends Facts₀ where

variable [Facts]
-- ==== ReferenceIdeal.lean ====
abbrev S16384x64 : Shape := ⟨2, ![16384, 64]⟩
abbrev S16384x16384 : Shape := ⟨2, ![16384, 16384]⟩
abbrev S64x32 : Shape := ⟨2, ![64, 32]⟩
abbrev S32 : Shape := ⟨1, ![32]⟩
abbrev S32x32 : Shape := ⟨2, ![32, 32]⟩
abbrev S16384x32 : Shape := ⟨2, ![16384, 32]⟩
abbrev S1x32 : Shape := ⟨2, ![1, 32]⟩
abbrev S_ : Shape := ⟨0, ![]⟩
abbrev S16384x32x1 : Shape := ⟨3, ![16384, 32, 1]⟩
abbrev S16384x32x2 : Shape := ⟨3, ![16384, 32, 2]⟩

abbrev nBuf : Space → Nat
  | .hbm => 62
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S64x32, .f32⟩
  | .hbm, ⟨3, _⟩ => ⟨S64x32, .f32⟩
  | .hbm, ⟨4, _⟩ => ⟨S32, .f32⟩
  | .hbm, ⟨5, _⟩ => ⟨S32x32, .f32⟩
  | .hbm, ⟨6, _⟩ => ⟨S64x32, .f32⟩
  | .hbm, ⟨7, _⟩ => ⟨S32, .f32⟩
  | .hbm, ⟨8, _⟩ => ⟨S64x32, .f32⟩
  | .hbm, ⟨9, _⟩ => ⟨S64x32, .f32⟩
  | .hbm, ⟨10, _⟩ => ⟨S32, .f32⟩
  | .hbm, ⟨11, _⟩ => ⟨S32x32, .f32⟩
  | .hbm, ⟨12, _⟩ => ⟨S64x32, .f32⟩
  | .hbm, ⟨13, _⟩ => ⟨S32, .f32⟩
  | .hbm, ⟨14, _⟩ => ⟨S16384x32, .f32⟩
  | .hbm, ⟨15, _⟩ => ⟨S16384x32, .f32⟩
  | .hbm, ⟨16, _⟩ => ⟨S16384x32, .f32⟩
  | .hbm, ⟨17, _⟩ => ⟨S16384x32, .f32⟩
  | .hbm, ⟨18, _⟩ => ⟨S1x32, .f32⟩
  | .hbm, ⟨19, _⟩ => ⟨S16384x32, .f32⟩
  | .hbm, ⟨20, _⟩ => ⟨S16384x32, .f32⟩
  | .hbm, ⟨21, _⟩ => ⟨S_, .f32⟩
  | .hbm, ⟨22, _⟩ => ⟨S16384x32, .f32⟩
  | .hbm, ⟨23, _⟩ => ⟨S16384x32, .f32⟩
  | .hbm, ⟨24, _⟩ => ⟨S16384x32, .f32⟩
  | .hbm, ⟨25, _⟩ => ⟨S16384x32, .f32⟩
  | .hbm, ⟨26, _⟩ => ⟨S16384x32, .f32⟩
  | .hbm, ⟨27, _⟩ => ⟨S16384x32, .f32⟩
  | .hbm, ⟨28, _⟩ => ⟨S1x32, .f32⟩
  | .hbm, ⟨29, _⟩ => ⟨S16384x32, .f32⟩
  | .hbm, ⟨30, _⟩ => ⟨S16384x32, .f32⟩
  | .hbm, ⟨31, _⟩ => ⟨S_, .f32⟩
  | .hbm, ⟨32, _⟩ => ⟨S16384x32, .f32⟩
  | .hbm, ⟨33, _⟩ => ⟨S16384x32, .f32⟩
  | .hbm, ⟨34, _⟩ => ⟨S16384x32, .f32⟩
  | .hbm, ⟨35, _⟩ => ⟨S16384x32, .f32⟩
  | .hbm, ⟨36, _⟩ => ⟨S16384x32, .f32⟩
  | .hbm, ⟨37, _⟩ => ⟨S16384x32, .f32⟩
  | .hbm, ⟨38, _⟩ => ⟨S1x32, .f32⟩
  | .hbm, ⟨39, _⟩ => ⟨S16384x32, .f32⟩
  | .hbm, ⟨40, _⟩ => ⟨S16384x32, .f32⟩
  | .hbm, ⟨41, _⟩ => ⟨S_, .f32⟩
  | .hbm, ⟨42, _⟩ => ⟨S16384x32, .f32⟩
  | .hbm, ⟨43, _⟩ => ⟨S16384x32, .f32⟩
  | .hbm, ⟨44, _⟩ => ⟨S16384x32, .f32⟩
  | .hbm, ⟨45, _⟩ => ⟨S16384x32, .f32⟩
  | .hbm, ⟨46, _⟩ => ⟨S16384x32, .f32⟩
  | .hbm, ⟨47, _⟩ => ⟨S16384x32, .f32⟩
  | .hbm, ⟨48, _⟩ => ⟨S1x32, .f32⟩
  | .hbm, ⟨49, _⟩ => ⟨S16384x32, .f32⟩
  | .hbm, ⟨50, _⟩ => ⟨S16384x32, .f32⟩
  | .hbm, ⟨51, _⟩ => ⟨S_, .f32⟩
  | .hbm, ⟨52, _⟩ => ⟨S16384x32, .f32⟩
  | .hbm, ⟨53, _⟩ => ⟨S16384x32, .f32⟩
  | .hbm, ⟨54, _⟩ => ⟨S16384x32x1, .f32⟩
  | .hbm, ⟨55, _⟩ => ⟨S16384x32x1, .f32⟩
  | .hbm, ⟨56, _⟩ => ⟨S16384x32x2, .f32⟩
  | .hbm, ⟨57, _⟩ => ⟨S_, .f32⟩
  | .hbm, ⟨58, _⟩ => ⟨S16384x32, .f32⟩
  | .hbm, ⟨59, _⟩ => ⟨S_, .f32⟩
  | .hbm, ⟨60, _⟩ => ⟨S16384x32, .f32⟩
  | .hbm, ⟨61, _⟩ => ⟨S16384x32, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_call0_cst : Ref sig .tc := ⟨.hbm, 21, rfl⟩
abbrev main_call0_v0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call1_cst : Ref sig .tc := ⟨.hbm, 31, rfl⟩
abbrev main_call1_v0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call2_cst : Ref sig .tc := ⟨.hbm, 41, rfl⟩
abbrev main_call2_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call3_cst : Ref sig .tc := ⟨.hbm, 51, rfl⟩
abbrev main_call3_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst : Ref sig .tc := ⟨.hbm, 57, rfl⟩
abbrev main_v35 : Ref sig .tc := ⟨.hbm, 58, rfl⟩
abbrev main_cst_0 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  concatenates_S16384x32x1_S16384x32x1_S16384x32x2_d2 : Shape.Concatenates [S16384x32x1, S16384x32x1] S16384x32x2 2
  reducesTo_S16384x32x2_S16384x32_d2 : S16384x32x2.ReducesTo [2] S16384x32
  h_S_ : 0 < S_.numel
  dot_S16384x64_S64x32_S16384x32_1_0_0_1_n_n_wf : DotDims.WF S16384x64 S64x32 S16384x32 [1] [0] [0] [1] [] []
  dot_S16384x16384_S16384x32_S16384x32_1_0_0_1_n_n_wf : DotDims.WF S16384x16384 S16384x32 S16384x32 [1] [0] [0] [1] [] []
  dot_S16384x32_S32x32_S16384x32_1_0_0_1_n_n_wf : DotDims.WF S16384x32 S32x32 S16384x32 [1] [0] [0] [1] [] []

variable [Facts₀]

def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S16384x16384_S16384x32_S16384x32_1_0_0_1_n_n : DotDims S16384x16384 S16384x32 S16384x32 where
  lhsContracting := [1]
  rhsContracting := [0]
  lhsNonContracting := [0]
  rhsNonContracting := [1]
  lhsBatch := []
  rhsBatch := []
  wf := dot_S16384x16384_S16384x32_S16384x32_1_0_0_1_n_n_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf

class Facts : Prop extends Facts₀ where

variable [Facts]
-- ==== Proof.Spec.lean ====
import Idealize.ShloMosaic.PureOps.Ideal
import Idealize.ShloMosaic.PureOps.Ideal.Laws
import Idealize.ShloMosaic.Lib.ValueIdx
import Mathlib.Algebra.BigOperators.Fin
import Mathlib.Data.EReal.Basic

noncomputable section

namespace Cert.Spec

open Idealize.ShloMosaic Idealize.ShloMosaic.ValueIdx

def proj {D : ℕ} (xb : FVec Ideal ⟨2, ![16384, D]⟩ .f32) (w1 : FVec Ideal ⟨2, ![D, 32]⟩ .f32) (k : Fin 16384) (c : Fin 32) : EReal :=
  ∑ d : Fin D, xb (ix2 k d) * w1 (ix2 d c)

def skip (x : FVec Ideal ⟨2, ![16384, 64]⟩ .f32) (w2 : FVec Ideal ⟨2, ![64, 32]⟩ .f32) (r : Fin 16384) (c : Fin 32) : EReal :=
  ∑ f : Fin 64, x (ix2 r f) * w2 (ix2 f c)

def gcsAt {D : ℕ} (L : FVec Ideal ⟨2, ![16384, 16384]⟩ .f32) (xb : FVec Ideal ⟨2, ![16384, D]⟩ .f32)
    (x : FVec Ideal ⟨2, ![16384, 64]⟩ .f32) (w1 : FVec Ideal ⟨2, ![D, 32]⟩ .f32) (w2 : FVec Ideal ⟨2, ![64, 32]⟩ .f32)
    (b : FVec Ideal ⟨1, ![32]⟩ .f32) (r : Fin 16384) (c : Fin 32) : EReal :=
  max (((∑ k : Fin 16384, L (ix2 r k) * proj xb w1 k c) + skip x w2 r c) + b (ix1 c)) 0

def gcs {D : ℕ} (L : FVec Ideal ⟨2, ![16384, 16384]⟩ .f32) (xb : FVec Ideal ⟨2, ![16384, D]⟩ .f32)
    (x : FVec Ideal ⟨2, ![16384, 64]⟩ .f32) (w1 : FVec Ideal ⟨2, ![D, 32]⟩ .f32) (w2 : FVec Ideal ⟨2, ![64, 32]⟩ .f32)
    (b : FVec Ideal ⟨1, ![32]⟩ .f32) : FVec Ideal ⟨2, ![16384, 32]⟩ .f32 :=
  fun i => gcsAt L xb x w1 w2 b (i 0) (i 1)

def col (kb : Fin 8) (j : Fin 2048) : Fin 16384 := ⟨2048 * kb.val + j.val, by have := kb.isLt; have := j.isLt; omega⟩

theorem sum_blocks (g : Fin 16384 → EReal) : ∑ k : Fin 16384, g k = ∑ kb : Fin 8, ∑ j : Fin 2048, g (col kb j) := by

  calc ∑ k : Fin 16384, g k
      = ∑ x : Fin 8 × Fin 2048, g (col x.1 x.2) :=
        (Fintype.sum_equiv (finProdFinEquiv (m := 8) (n := 2048)) (fun x => g (col x.1 x.2)) g (fun x => by
          congr 1
          apply Fin.ext
          simp only [col, finProdFinEquiv_apply_val]
          omega)).symm
    _ = ∑ kb : Fin 8, ∑ j : Fin 2048, g (col kb j) := Fintype.sum_prod_type _

def accum (p : ℕ → EReal) : ℕ → EReal
  | 0 => 0 + p 0
  | n + 1 => accum p n + p (n + 1)

theorem accum_seven (p : ℕ → EReal) : accum p 7 = ∑ kb : Fin 8, p kb.val := by

  have h : accum p 7 = 0 + p 0 + p 1 + p 2 + p 3 + p 4 + p 5 + p 6 + p 7 := rfl
  rw [h, Fin.sum_univ_eight, zero_add]
  rfl

/-- The contraction sum of an M x K by K x N product at row `r`, column `c`, over its one coordinate. -/
theorem sum_plain {M K N : ℕ} (a : (⟨2, ![M, K]⟩ : Shape).Idx → EReal) (b : (⟨2, ![K, N]⟩ : Shape).Idx → EReal)
    (r : Fin M) (c : Fin N) :
    ∑ k : (DotDims.plain M K N).contr.Idx,
        a ((DotDims.plain M K N).lhsIdx (ix2 r c) k) * b ((DotDims.plain M K N).rhsIdx (ix2 r c) k)
      = ∑ k : Fin K, a (ix2 r k) * b (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun d => Fin.ext (by
      match d with
      | ⟨0, _⟩ => rfl
      | ⟨1, _⟩ => exact hk)
  have er : (DotDims.plain M K N).rhsIdx (ix2 r c) ((contrEquiv1 (DotDims.plain M K N) K rfl rfl).symm k) = ix2 k c :=
    funext fun d => Fin.ext (by
      match d with
      | ⟨0, _⟩ => exact hk
      | ⟨1, _⟩ => rfl)
  rw [el, er]

end Cert.Spec

end
-- ==== Proof.KI.Tail.lean ====
import proofs.«115539_j71236327571877_1_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen
open Idealize.ShloMosaic Idealize.ShloMosaic.TcCoe Idealize.ShloMosaic.ValueIdx

def tailK (a b : FVec Ideal S16384x32 .f32) : FVec Ideal S16384x32 .f32 :=
  Host.divf
    (Host.reduceAdd
      (concatenate S16384x32x2 2
        [⟨S16384x32x1, broadcastInDim S16384x32x1 ![0, 1] bcast_S16384x32_S16384x32x1_0_1 a⟩,
          ⟨S16384x32x1, broadcastInDim S16384x32x1 ![0, 1] bcast_S16384x32_S16384x32x1_0_1 b⟩]
        concatenates_S16384x32x1_S16384x32x1_S16384x32x2_d2)
      (constant (F := Ideal) S_ .f32 0x00000000#32) reducesTo_S16384x32x2_S16384x32_d2 h_S_)
    (broadcastInDim S16384x32 ![] bcast_S_S16384x32 (constant (F := Ideal) S_ .f32 0x40000000#32))

theorem after5_result (W : Valuation τ sig (Elt Ideal)) :
    StableHlo.after (hostOps5 (F := Ideal)) W (Proc.devRef .tc main_v14)
      = tailK (W (Proc.devRef .tc main_v4)) (W (Proc.devRef .tc main_v8)) := by
  after_results
  rfl

theorem after1_bias (W : Valuation τ sig (Elt Ideal)) :
    (fun j : S32.Idx => (StableHlo.after (hostOps1 (F := Ideal)) W (Proc.devRef .tc main_v1) : S1x32.Idx → EReal) (ix2 0 (j 0)))
      = W (Proc.devRef .tc main_arg4) := by
  funext j
  obtain ⟨i, rfl⟩ : ∃ i : Fin 32, j = ix1 i := ⟨j 0, eq_ix1 j⟩
  after_results
  exact shapeCast_a_1a_apply _ _ 0 i

theorem after2_bias (W : Valuation τ sig (Elt Ideal)) :
    (fun j : S32.Idx => (StableHlo.after (hostOps2 (F := Ideal)) W (Proc.devRef .tc main_v3) : S1x32.Idx → EReal) (ix2 0 (j 0)))
      = W (Proc.devRef .tc main_arg7) := by
  funext j
  obtain ⟨i, rfl⟩ : ∃ i : Fin 32, j = ix1 i := ⟨j 0, eq_ix1 j⟩
  after_results
  exact shapeCast_a_1a_apply _ _ 0 i

theorem after3_bias (W : Valuation τ sig (Elt Ideal)) :
    (fun j : S32.Idx => (StableHlo.after (hostOps3 (F := Ideal)) W (Proc.devRef .tc main_v5) : S1x32.Idx → EReal) (ix2 0 (j 0)))
      = W (Proc.devRef .tc main_arg10) := by
  funext j
  obtain ⟨i, rfl⟩ : ∃ i : Fin 32, j = ix1 i := ⟨j 0, eq_ix1 j⟩
  after_results
  exact shapeCast_a_1a_apply _ _ 0 i

theorem after4_bias (W : Valuation τ sig (Elt Ideal)) :
    (fun j : S32.Idx => (StableHlo.after (hostOps4 (F := Ideal)) W (Proc.devRef .tc main_v7) : S1x32.Idx → EReal) (ix2 0 (j 0)))
      = W (Proc.devRef .tc main_arg13) := by
  funext j
  obtain ⟨i, rfl⟩ : ∃ i : Fin 32, j = ix1 i := ⟨j 0, eq_ix1 j⟩
  after_results
  exact shapeCast_a_1a_apply _ _ 0 i

end Cert.KernelIdeal.Val

end
-- ==== Proof.RefValue.lean ====
import proofs.«115539_j71236327571877_1_alg».proof.Proof.Gen.ReferenceIdeal.Run
import proofs.«115539_j71236327571877_1_alg».proof.Proof.Gen.ReferenceIdeal.Read
import proofs.«115539_j71236327571877_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

def tailR (a b : FVec Ideal S16384x32 .f32) : FVec Ideal S16384x32 .f32 :=
  Host.divf (F := Ideal) (Host.reduceAdd (F := Ideal) (concatenate S16384x32x2 2 [⟨S16384x32x1, (broadcastInDim S16384x32x1 ![0, 1] bcast_S16384x32_S16384x32x1_0_1 a)⟩, ⟨S16384x32x1, (broadcastInDim S16384x32x1 ![0, 1] bcast_S16384x32_S16384x32x1_0_1 b)⟩] concatenates_S16384x32x1_S16384x32x1_S16384x32x2_d2) (constant (F := Ideal) S_ .f32 0x00000000#32) reducesTo_S16384x32x2_S16384x32_d2 h_S_) (broadcastInDim S16384x32 ![] bcast_S_S16384x32 (constant (F := Ideal) S_ .f32 0x40000000#32))

theorem dot_at {M K N : ℕ} (a : FVec Ideal ⟨2, ![M, K]⟩ .f32) (w : FVec Ideal ⟨2, ![K, N]⟩ .f32) (r : Fin M) (c : Fin N) :
    Host.dotGeneral (F := Ideal) (DotDims.plain M K N) none a w (ix2 r c) = ∑ k : Fin K, a (ix2 r k) * w (ix2 k c) := by
  simp only [Host.dotGeneral]
  exact (Ideal.dotGeneral_apply _ _ _ a w _).trans (Cert.Spec.sum_plain a w r c)

theorem bias_at (b : FVec Ideal S32 .f32) (r : Fin 16384) (c : Fin 32) :
    (broadcastInDim S16384x32 ![0, 1] bcast_S1x32_S16384x32_0_1 (broadcastInDim S1x32 ![1] bcast_S32_S1x32_1 b)) (ix2 r c) = b (ix1 c) := by
  refine (Read.val_main_v5_apply (F := Ideal) b (ix2 r c)).trans ((Read.val_main_v4_apply (F := Ideal) b _).trans (congrArg b ?_))
  funext d; match d with | ⟨0, _⟩ => rfl

theorem zero_at (i : S16384x32.Idx) : (broadcastInDim S16384x32 ![] bcast_S_S16384x32 (constant (F := Ideal) S_ .f32 0x00000000#32)) i = 0 :=
  (Read.val_main_call0_v0_apply (F := Ideal) i).trans Ideal.ofBits_zero_f32

/-- The reference's step, at either width of the propagated features, is the stated step. -/
theorem step_eq {D : ℕ} (L : FVec Ideal S16384x16384 .f32) (xb : FVec Ideal ⟨2, ![16384, D]⟩ .f32) (x : FVec Ideal S16384x64 .f32)
    (w1 : FVec Ideal ⟨2, ![D, 32]⟩ .f32) (w2 : FVec Ideal S64x32 .f32) (b : FVec Ideal S32 .f32) :
    maximumf (addf (addf (Host.dotGeneral (F := Ideal) (DotDims.plain 16384 16384 32) none L (Host.dotGeneral (F := Ideal) (DotDims.plain 16384 D 32) none xb w1)) (Host.dotGeneral (F := Ideal) (DotDims.plain 16384 64 32) none x w2)) (broadcastInDim S16384x32 ![0, 1] bcast_S1x32_S16384x32_0_1 (broadcastInDim S1x32 ![1] bcast_S32_S1x32_1 b))) (broadcastInDim S16384x32 ![] bcast_S_S16384x32 (constant (F := Ideal) S_ .f32 0x00000000#32)) = Cert.Spec.gcs L xb x w1 w2 b := by
  funext i
  obtain ⟨r, c, rfl⟩ : ∃ (r : Fin 16384) (c : Fin 32), i = ix2 r c := ⟨i 0, i 1, eq_ix2 i⟩
  rw [maximumf_apply, addf_apply, addf_apply, dot_at, dot_at, bias_at, zero_at]
  unfold Cert.Spec.gcs Cert.Spec.gcsAt Cert.Spec.proj Cert.Spec.skip
  simp only [dot_at]

theorem ref_eq (x0 : FVec Ideal S16384x64 .f32) (x1 : FVec Ideal S16384x16384 .f32) (x2 x3 : FVec Ideal S64x32 .f32) (x4 : FVec Ideal S32 .f32) (x5 : FVec Ideal S32x32 .f32) (x6 : FVec Ideal S64x32 .f32) (x7 : FVec Ideal S32 .f32) (x8 x9 : FVec Ideal S64x32 .f32) (x10 : FVec Ideal S32 .f32) (x11 : FVec Ideal S32x32 .f32) (x12 : FVec Ideal S64x32 .f32) (x13 : FVec Ideal S32 .f32) :
    Read.val_main_v37 (F := Ideal) x0 x1 x2 x3 x4 x5 x6 x7 x8 x9 x10 x11 x12 x13
      = tailR (Cert.Spec.gcs x1 (Cert.Spec.gcs x1 x0 x0 x2 x3 x4) x0 x5 x6 x7) (Cert.Spec.gcs x1 (Cert.Spec.gcs x1 x0 x0 x8 x9 x10) x0 x11 x12 x13) := by
  refine (Read.val_main_v37_eq (F := Ideal) ..).symm.trans ?_
  exact congrArg₂ tailR ((step_eq (D := 32) x1 _ x0 x5 x6 x7).trans (congrArg (Cert.Spec.gcs x1 · x0 x5 x6 x7) (step_eq (D := 64) x1 x0 x0 x2 x3 x4)))
    ((step_eq (D := 32) x1 _ x0 x11 x12 x13).trans (congrArg (Cert.Spec.gcs x1 · x0 x11 x12 x13) (step_eq (D := 64) x1 x0 x0 x8 x9 x10)))

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v37) = tailR (Cert.Spec.gcs (m ((c.tc : Thread nD τ).loc main_arg1)) (Cert.Spec.gcs (m ((c.tc : Thread nD τ).loc main_arg1)) (m ((c.tc : Thread nD τ).loc main_arg0)) (m ((c.tc : Thread nD τ).loc main_arg0)) (m ((c.tc : Thread nD τ).loc main_arg2)) (m ((c.tc : Thread nD τ).loc main_arg3)) (m ((c.tc : Thread nD τ).loc main_arg4))) (m ((c.tc : Thread nD τ).loc main_arg0)) (m ((c.tc : Thread nD τ).loc main_arg5)) (m ((c.tc : Thread nD τ).loc main_arg6)) (m ((c.tc : Thread nD τ).loc main_arg7))) (Cert.Spec.gcs (m ((c.tc : Thread nD τ).loc main_arg1)) (Cert.Spec.gcs (m ((c.tc : Thread nD τ).loc main_arg1)) (m ((c.tc : Thread nD τ).loc main_arg0)) (m ((c.tc : Thread nD τ).loc main_arg0)) (m ((c.tc : Thread nD τ).loc main_arg8)) (m ((c.tc : Thread nD τ).loc main_arg9)) (m ((c.tc : Thread nD τ).loc main_arg10))) (m ((c.tc : Thread nD τ).loc main_arg0)) (m ((c.tc : Thread nD τ).loc main_arg11)) (m ((c.tc : Thread nD τ).loc main_arg12)) (m ((c.tc : Thread nD τ).loc main_arg13)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c).1.trans ((Read.val_main_v37_eq (F := Ideal) ..).trans (ref_eq ..)), (h c).2⟩)
    (Cert.ReferenceIdeal.Value.run (F := Ideal) m ρ)

end Cert.ReferenceIdeal.RefValue

end
-- ==== Proof.K.Cast.lean ====
import proofs.«115539_j71236327571877_1_alg».proof.Proof.Gen.Kernel.Launch
import proofs.«115539_j71236327571877_1_alg».proof.Proof.Gen.Kernel.Skeleton
import proofs.«115539_j71236327571877_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rc0 : Rect S1024x2048 := Rect.unit (s := S1024x2048) ![0, 0] S1024x2048.size inb_S1024x2048_S1024x2048_0_0

def out0_1 (x0 : Vec F S1024x2048 .f32) : Vec F S1024x2048 .bf16 :=
  View.canon [⟨rc0, k0_pay1 (View.ld x0 rc0)⟩]

theorem cover0_1 (p0 : Vec F S1024x2048 .bf16) (y : S1024x2048.Idx) :
    ∃ pc ∈ ([⟨rc0, p0⟩] : List (View.Piece (Elt F) S1024x2048 .bf16)), y ∈ pc.1.set :=
  View.cover_of_tiled [⟨rc0, p0⟩] S1024x2048.size (by rfl) y

set_option maxHeartbeats 1000000 in

theorem sound_kernel0 (c : Dev nD) (E : Set ℕ) (i : grid0.Coords) (arg0 : Memref sig .tc .vmem S1024x2048 .f32) (harg0 : arg0.IsWhole) (arg1 : Memref sig .tc .vmem S1024x2048 .bf16) (harg1 : arg1.IsWhole)
    (x0 : Vec F S1024x2048 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__cast_kernel i arg0 harg0 arg1 harg1) K := by
  simp only [cc0__cast_kernel_eq_skeleton]; unfold cc0__cast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  iframe HΦ Ho H0 H1

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Gcs1Run.lean ====
import proofs.«115539_j71236327571877_1_alg».proof.Proof.Gen.Kernel.Launch
import proofs.«115539_j71236327571877_1_alg».proof.Proof.Gen.Kernel.Skeleton
import proofs.«115539_j71236327571877_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev run1_c0 (i : grid1.Coords) : Prop := (Scalar.cmpi .ne (Scalar.extui (Scalar.cmpi .eq (BitVec.ofNat 32 (i 1).val) 0#32)) 0#32) = 1#1

abbrev run1_c1 (i : grid1.Coords) : Prop := k1_cond2 i = 1#1

section body
variable (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x64 .f32) (harg4 : arg4.IsWhole) (arg5 : Memref sig .tc .vmem S64x32 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole)

section A
variable (hc0 : run1_c0 i) (hc1 : ¬run1_c1 i) (x0 : Vec F S2048x2048 .bf16) (x1 : Vec F S2048x64 .f32) (x2 : Vec F S2048x64 .f32) (x3 : Vec F S64x32 .f32) (x4 : Vec F S64x32 .f32) (x5 : Vec F S1x32 .f32)

-- k = 0: the accumulator is overwritten with zero and then with zero plus the first column block's product; the output block is not written.
set_option maxHeartbeats 4000000 in
noncomputable def kernelRun1_A :
    Σ' (L6 : List (View.Piece (Elt F) S2048x32 .f32)), { LS0 : List (View.Piece (Elt F) S2048x32 .f32) //
      ∀ (xi6 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__gcs_kernel i arg2 harg2 arg3 harg3 arg4 harg4 arg5 harg5 arg6 harg6 arg7 harg7 arg8 harg8 arg9 harg9) K } := by
  refine ⟨[], ?_, fun xi6 E K => ?run⟩
  case run =>
    simp only [cc1__gcs_kernel_eq_skeleton]; unfold cc1__gcs_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end A

section B
variable (hc0 : ¬run1_c0 i) (hc1 : ¬run1_c1 i) (x0 : Vec F S2048x2048 .bf16) (x1 : Vec F S2048x64 .f32) (x2 : Vec F S2048x64 .f32) (x3 : Vec F S64x32 .f32) (x4 : Vec F S64x32 .f32) (x5 : Vec F S1x32 .f32) (xs0 : Vec F S2048x32 .f32)

-- 0 < k < 7: the accumulator gains this column block's product; the output block is not written.
set_option maxHeartbeats 4000000 in
noncomputable def kernelRun1_B :
    Σ' (L6 : List (View.Piece (Elt F) S2048x32 .f32)), { LS0 : List (View.Piece (Elt F) S2048x32 .f32) //
      ∀ (xi6 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__gcs_kernel i arg2 harg2 arg3 harg3 arg4 harg4 arg5 harg5 arg6 harg6 arg7 harg7 arg8 harg8 arg9 harg9) K } := by
  refine ⟨[], ?_, fun xi6 E K => ?run⟩
  case run =>
    simp only [cc1__gcs_kernel_eq_skeleton]; unfold cc1__gcs_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end B

section C
variable (hc0 : ¬run1_c0 i) (hc1 : run1_c1 i) (x0 : Vec F S2048x2048 .bf16) (x1 : Vec F S2048x64 .f32) (x2 : Vec F S2048x64 .f32) (x3 : Vec F S64x32 .f32) (x4 : Vec F S64x32 .f32) (x5 : Vec F S1x32 .f32) (xs0 : Vec F S2048x32 .f32)

-- k = 7: the accumulator gains the last product, and the row block max(accumulator + X W2 + b, 0) is written.
set_option maxHeartbeats 4000000 in
noncomputable def kernelRun1_C :
    Σ' (L6 : List (View.Piece (Elt F) S2048x32 .f32)), { LS0 : List (View.Piece (Elt F) S2048x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__gcs_kernel i arg2 harg2 arg3 harg3 arg4 harg4 arg5 harg5 arg6 harg6 arg7 harg7 arg8 harg8 arg9 harg9) K } := by
  refine ⟨?_, ?_, fun E K => ?run⟩
  case run =>
    simp only [cc1__gcs_kernel_eq_skeleton]; unfold cc1__gcs_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end C

end body

end Cert.Kernel.Hand

end
-- ==== Proof.K.Gcs1.lean ====
import proofs.«115539_j71236327571877_1_alg».proof.Proof.K.Gcs1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := run1_c0 i

-- In the linear order of the 64 grid points (k fastest) the column block is the first at every eighth point,
theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := run1_c1 i

-- and the last at every eighth point from the eighth.
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel

theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel

theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel

theorem liveAt1_6_C : ∀ t : Fin cfg1.N, ¬cond1_0 (grid1.coords t) → cond1_1 (grid1.coords t) → cfg1.idle 6 (grid1.coords t) = false := by decide +kernel

abbrev VO1_6 : View sig .tc .vmem S2048x32 .f32 := (Memref.whole cc1_stg6_0 : Memref sig .tc .vmem S2048x32 .f32).view

abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x32 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x32 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x32 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2048x32 .f32 := win1_6.stage (cfg1.slots t 6)
abbrev hs1_6 (t : Fin cfg1.N) : (ms1_6 t).IsWhole := hstage1_6 ((cfg1.slots t 6).cast nbuf1_6)

abbrev scM1_0 : Memref sig .tc .vmem S2048x32 .f32 := Memref.whole cc1_scratch0

abbrev VS1_0 : View sig .tc .vmem S2048x32 .f32 := scM1_0.view

theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

section body
variable (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x64 .f32) (harg4 : arg4.IsWhole) (arg5 : Memref sig .tc .vmem S64x32 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole)

section A
variable (hc0 : cond1_0 i) (hc1 : ¬cond1_1 i) (x0 : Vec F S2048x2048 .bf16) (x1 : Vec F S2048x64 .f32) (x2 : Vec F S2048x64 .f32) (x3 : Vec F S64x32 .f32) (x4 : Vec F S64x32 .f32) (x5 : Vec F S1x32 .f32)

def out1_A_6 : Vec F S2048x32 .f32 :=
  VO1_6.read (Elt F) (VO1_6.writes (Elt F) VO1_6.junk (kernelRun1_A c i arg2 harg2 arg3 harg3 arg4 harg4 arg5 harg5 arg6 harg6 arg7 harg7 arg8 harg8 arg9 harg9 hc0 hc1 x0 x1 x2 x3 x4 x5).1)

theorem scover1_A_0 (y : S2048x32.Idx) :
    ∃ pc ∈ (kernelRun1_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).2.1 S2048x32.size (by sl_kernel_rfl) y

def sout1_A_0 : Vec F S2048x32 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4 x5).2.1)

end A

section B
variable (hc0 : ¬cond1_0 i) (hc1 : ¬cond1_1 i) (x0 : Vec F S2048x2048 .bf16) (x1 : Vec F S2048x64 .f32) (x2 : Vec F S2048x64 .f32) (x3 : Vec F S64x32 .f32) (x4 : Vec F S64x32 .f32) (x5 : Vec F S1x32 .f32) (xs0 : Vec F S2048x32 .f32)

def out1_B_6 : Vec F S2048x32 .f32 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x0 x1 x2 x3 x4 x5 xs0).1)

theorem scover1_B_0 (y : S2048x32.Idx) :
    ∃ pc ∈ (kernelRun1_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).2.1 S2048x32.size (by sl_kernel_rfl) y

def sout1_B_0 : Vec F S2048x32 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 x4 x5 xs0).2.1)

end B

section C
variable (hc0 : ¬cond1_0 i) (hc1 : cond1_1 i) (x0 : Vec F S2048x2048 .bf16) (x1 : Vec F S2048x64 .f32) (x2 : Vec F S2048x64 .f32) (x3 : Vec F S64x32 .f32) (x4 : Vec F S64x32 .f32) (x5 : Vec F S1x32 .f32) (xs0 : Vec F S2048x32 .f32)

theorem cover1_C_6 (y : S2048x32.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S2048x32.size (by sl_kernel_rfl) y

def out1_C_6 : Vec F S2048x32 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xs0).1)

theorem scover1_C_0 (y : S2048x32.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S2048x32.size (by sl_kernel_rfl) y

def sout1_C_0 : Vec F S2048x32 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 x5 xs0).2.1)

end C

end body

variable (V : (c : Dev nD) → (b : Ref sig .tc) → Buf (Elt F) ((c : Thread nD τ).loc b))

def q1 : Fin cfg1.W → PosShare TreeShare := fun w => if w = 1 then fullShare.left else if w = 2 then fullShare.right else fullShare

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rest1 (c : Dev nD) : sProp 𝕄 := Pipeline.scopedRestBut (Ix := Unit) (Name := ℕ) (U := UR sig nD τ) (Lvl := ℕ) (Val := Elt F) spec1 c [cc1_scratch0]

def pairA1 (c : Dev nD) (t : Fin cfg1.N) (h0 : t.val % 8 = 0) (h1 : ¬t.val % 8 = 7) : Vec F S2048x32 .f32 × Vec F S2048x32 .f32 :=
  (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))

def pairB1 (c : Dev nD) (t : Fin cfg1.N) (h0 : ¬t.val % 8 = 0) (h1 : ¬t.val % 8 = 7) (xs0 : Vec F S2048x32 .f32) : Vec F S2048x32 .f32 × Vec F S2048x32 .f32 :=
  (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) xs0,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) xs0)

def pairC1 (c : Dev nD) (t : Fin cfg1.N) (h0 : ¬t.val % 8 = 0) (h1 : t.val % 8 = 7) (xs0 : Vec F S2048x32 .f32) : Vec F S2048x32 .f32 × Vec F S2048x32 .f32 :=
  (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) xs0,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) xs0)

-- What the output block and the accumulator hold after the n-th point: a point with k = 0 starts afresh, any other continues from what the point before left.
def outsAt1 (V : (c : Dev nD) → (b : Ref sig .tc) → Buf (Elt F) ((c : Thread nD τ).loc b)) (c : Dev nD) : (n : ℕ) → n < cfg1.N → Vec F S2048x32 .f32 × Vec F S2048x32 .f32
  | 0, hn => pairA1 V c ⟨0, hn⟩ (Nat.zero_mod _) (fun h => by (try dsimp only at h); omega)
  | n + 1, hn =>
    if h0 : (n + 1) % 8 = 0 then
      if h1 : (n + 1) % 8 = 7 then
        False.elim (by omega)
      else
        pairA1 V c ⟨n + 1, hn⟩ h0 h1
    else
      if h1 : (n + 1) % 8 = 7 then
        pairC1 V c ⟨n + 1, hn⟩ h0 h1 (outsAt1 V c n (Nat.lt_of_succ_lt hn)).2
      else
        pairB1 V c ⟨n + 1, hn⟩ h0 h1 (outsAt1 V c n (Nat.lt_of_succ_lt hn)).2

theorem outsAt1_A (c : Dev nD) (t : Fin cfg1.N) (h0 : t.val % 8 = 0) (h1 : ¬t.val % 8 = 7) :
    outsAt1 V c t.val t.isLt = pairA1 V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = pairB1 V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = pairC1 V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

-- Between points the accumulator is owned at exactly what the point before left in it.
def PhiS1 (V : (c : Dev nD) → (b : Ref sig .tc) → Buf (Elt F) ((c : Thread nD τ).loc b)) (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 (F := F) c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q w := q1 w
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

theorem leaves1_0 (c : Dev nD) (t : Fin cfg1.N) : (dat1 V c).leavesExact 0 t = owns (c : Thread nD τ) (ms1_0 t) fullShare (iblk1 V c 0 t) := by
  rw [← after1_0]; first | done | (unfold Dat.leavesExact; rw [liveAt1_0 t])
theorem leaves1_1 (c : Dev nD) (t : Fin cfg1.N) : (dat1 V c).leavesExact 1 t = owns (c : Thread nD τ) (ms1_1 t) fullShare (iblk1 V c 1 t) := by
  rw [← after1_1]; first | done | (unfold Dat.leavesExact; rw [liveAt1_1 t])
theorem leaves1_2 (c : Dev nD) (t : Fin cfg1.N) : (dat1 V c).leavesExact 2 t = owns (c : Thread nD τ) (ms1_2 t) fullShare (iblk1 V c 2 t) := by
  rw [← after1_2]; first | done | (unfold Dat.leavesExact; rw [liveAt1_2 t])
theorem leaves1_3 (c : Dev nD) (t : Fin cfg1.N) : (dat1 V c).leavesExact 3 t = owns (c : Thread nD τ) (ms1_3 t) fullShare (iblk1 V c 3 t) := by
  rw [← after1_3]; first | done | (unfold Dat.leavesExact; rw [liveAt1_3 t])
theorem leaves1_4 (c : Dev nD) (t : Fin cfg1.N) : (dat1 V c).leavesExact 4 t = owns (c : Thread nD τ) (ms1_4 t) fullShare (iblk1 V c 4 t) := by
  rw [← after1_4]; first | done | (unfold Dat.leavesExact; rw [liveAt1_4 t])
theorem leaves1_5 (c : Dev nD) (t : Fin cfg1.N) : (dat1 V c).leavesExact 5 t = owns (c : Thread nD τ) (ms1_5 t) fullShare (iblk1 V c 5 t) := by
  rw [← after1_5]; first | done | (unfold Dat.leavesExact; rw [liveAt1_5 t])

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

-- The body takes the invariant before a point to the invariant after it; the position modulo 8 says which of the three runs applies.
set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5, PhiS1_castSucc V c t]
  have hN : t.val < 64 := lt_of_lt_of_eq t.isLt (show cfg1.N = 64 from N_1)
  by_cases h0 : t.val % 8 = 0
  · have h1 : ¬t.val % 8 = 7 := by omega
    have hc0 := (hcond1_0 t).mpr h0
    have hc1 : ¬cond1_1 (grid1.coords t) := fun h => h1 ((hcond1_1 t).mp h)
    rw [Dat.leavesExact_idle (dat1 V c) 6 t (idleAt1_6_A t hc0 hc1) (noFlush1_6_A t hc0 hc1), outsAt1_A V c t h0 h1]
    unfold pairA1 sout1_A_0; (try dsimp only)
    by_cases hz : t.val = 0
    on_goal 1 => rw [PhiS1_zero V c _ _ hz, PhiA1_eq]
    on_goal 2 => rw [PhiS1_pos V c _ _ hz]
    all_goals
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t)).2.2 _ Set.univ _)
      iframe H0 H1 H2 H3 H4 H5 H6
      isplitl [HS0]; · first | iexact HS0 | (iexists _; iexact HS0)
      iintro ⟨H0, H1, H2, H3, H4, H5, H6, ⟨%es0, HS0⟩⟩
      iframe Hr Hg Ho H0 H1 H2 H3 H4 H5
      isplitl [HS0]
      · unfold owns; iexists _; isplitr
        swap; · iexact HS0
        ipureintro; exact View.read_writes_of_cover _ _ _ _ _ (scover1_A_0 c _ _ _ _ _ _ _ _ _ _ _ _ _ _ _ _ _ _ _ _ _ _ _ _ _)
      iexists _; iexact H6
  · have hc0 : ¬cond1_0 (grid1.coords t) := fun h => h0 ((hcond1_0 t).mp h)
    have hz : t.val ≠ 0 := fun h => h0 (by rw [h])
    rw [PhiS1_pos V c _ _ hz]
    by_cases h1 : t.val % 8 = 7
    · have hc1 := (hcond1_1 t).mpr h1
      rw [show (dat1 V c).leavesExact 6 t = owns (c : Thread nD τ) (ms1_6 t) fullShare ((dat1 V c).after 6 t) from by
        unfold Dat.leavesExact; rw [liveAt1_6_C t hc0 hc1], after1_6, outsAt1_C V c t h0 h1]
      unfold pairC1 out1_C_6 sout1_C_0; (try dsimp only)
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _).2.2 Set.univ _)
      iframe H0 H1 H2 H3 H4 H5 HS0
      isplitl [H6]; · iexists _; iexact H6
      iintro ⟨H0, H1, H2, H3, H4, H5, ⟨%e6, H6⟩, ⟨%es0, HS0⟩⟩
      iframe Hr Hg Ho H0 H1 H2 H3 H4 H5
      isplitl [HS0]
      · unfold owns; iexists _; isplitr
        swap; · iexact HS0
        ipureintro; exact View.read_writes_of_cover _ _ _ _ _ (scover1_C_0 c _ _ _ _ _ _ _ _ _ _ _ _ _ _ _ _ _ _ _ _ _ _ _ _ _ _)
      unfold owns; iexists _; isplitr
      swap; · iexact H6
      ipureintro; exact View.read_writes_of_cover _ _ _ _ _ (cover1_C_6 c _ _ _ _ _ _ _ _ _ _ _ _ _ _ _ _ _ _ _ _ _ _ _ _ _ _)
    · have hc1 : ¬cond1_1 (grid1.coords t) := fun h => h1 ((hcond1_1 t).mp h)
      rw [Dat.leavesExact_idle (dat1 V c) 6 t (idleAt1_6_B t hc0 hc1) (noFlush1_6_B t hc0 hc1), outsAt1_B V c t h0 h1]
      unfold pairB1 sout1_B_0; (try dsimp only)
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _).2.2 _ Set.univ _)
      iframe H0 H1 H2 H3 H4 H5 H6 HS0
      iintro ⟨H0, H1, H2, H3, H4, H5, H6, ⟨%es0, HS0⟩⟩
      iframe Hr Hg Ho H0 H1 H2 H3 H4 H5
      isplitl [HS0]
      · unfold owns; iexists _; isplitr
        swap; · iexact HS0
        ipureintro; exact View.read_writes_of_cover _ _ _ _ _ (scover1_B_0 c _ _ _ _ _ _ _ _ _ _ _ _ _ _ _ _ _ _ _ _ _ _ _ _ _ _)
      iexists _; iexact H6

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.K.Gcs2Run.lean ====
import proofs.«115539_j71236327571877_1_alg».proof.Proof.Gen.Kernel.Launch
import proofs.«115539_j71236327571877_1_alg».proof.Proof.Gen.Kernel.Skeleton
import proofs.«115539_j71236327571877_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev run2_c0 (i : grid2.Coords) : Prop := (Scalar.cmpi .ne (Scalar.extui (Scalar.cmpi .eq (BitVec.ofNat 32 (i 1).val) 0#32)) 0#32) = 1#1

abbrev run2_c1 (i : grid2.Coords) : Prop := k2_cond2 i = 1#1

section body
variable (c : Dev nD) (i : grid2.Coords) (arg2 : Memref sig .tc .vmem S2048x2048 .bf16) (harg2 : arg2.IsWhole) (arg3 : Memref sig .tc .vmem S2048x32 .f32) (harg3 : arg3.IsWhole) (arg4 : Memref sig .tc .vmem S2048x64 .f32) (harg4 : arg4.IsWhole) (arg5 : Memref sig .tc .vmem S32x32 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole)

section A
variable (hc0 : run2_c0 i) (hc1 : ¬run2_c1 i) (x0 : Vec F S2048x2048 .bf16) (x1 : Vec F S2048x32 .f32) (x2 : Vec F S2048x64 .f32) (x3 : Vec F S32x32 .f32) (x4 : Vec F S64x32 .f32) (x5 : Vec F S1x32 .f32)

-- k = 0: the accumulator is overwritten with zero and then with zero plus the first column block's product; the output block is not written.
set_option maxHeartbeats 4000000 in
noncomputable def kernelRun2_A :
    Σ' (L6 : List (View.Piece (Elt F) S2048x32 .f32)), { LS0 : List (View.Piece (Elt F) S2048x32 .f32) //
      ∀ (xi6 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2__gcs_kernel i arg2 harg2 arg3 harg3 arg4 harg4 arg5 harg5 arg6 harg6 arg7 harg7 arg8 harg8 arg9 harg9) K } := by
  refine ⟨[], ?_, fun xi6 E K => ?run⟩
  case run =>
    simp only [cc2__gcs_kernel_eq_skeleton]; unfold cc2__gcs_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end A

section B
variable (hc0 : ¬run2_c0 i) (hc1 : ¬run2_c1 i) (x0 : Vec F S2048x2048 .bf16) (x1 : Vec F S2048x32 .f32) (x2 : Vec F S2048x64 .f32) (x3 : Vec F S32x32 .f32) (x4 : Vec F S64x32 .f32) (x5 : Vec F S1x32 .f32) (xs0 : Vec F S2048x32 .f32)

-- 0 < k < 7: the accumulator gains this column block's product; the output block is not written.
set_option maxHeartbeats 4000000 in
noncomputable def kernelRun2_B :
    Σ' (L6 : List (View.Piece (Elt F) S2048x32 .f32)), { LS0 : List (View.Piece (Elt F) S2048x32 .f32) //
      ∀ (xi6 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2__gcs_kernel i arg2 harg2 arg3 harg3 arg4 harg4 arg5 harg5 arg6 harg6 arg7 harg7 arg8 harg8 arg9 harg9) K } := by
  refine ⟨[], ?_, fun xi6 E K => ?run⟩
  case run =>
    simp only [cc2__gcs_kernel_eq_skeleton]; unfold cc2__gcs_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end B

section C
variable (hc0 : ¬run2_c0 i) (hc1 : run2_c1 i) (x0 : Vec F S2048x2048 .bf16) (x1 : Vec F S2048x32 .f32) (x2 : Vec F S2048x64 .f32) (x3 : Vec F S32x32 .f32) (x4 : Vec F S64x32 .f32) (x5 : Vec F S1x32 .f32) (xs0 : Vec F S2048x32 .f32)

-- k = 7: the accumulator gains the last product, and the row block max(accumulator + X W2 + b, 0) is written.
set_option maxHeartbeats 4000000 in
noncomputable def kernelRun2_C :
    Σ' (L6 : List (View.Piece (Elt F) S2048x32 .f32)), { LS0 : List (View.Piece (Elt F) S2048x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc2__gcs_kernel i arg2 harg2 arg3 harg3 arg4 harg4 arg5 harg5 arg6 harg6 arg7 harg7 arg8 harg8 arg9 harg9) K } := by
  refine ⟨?_, ?_, fun E K => ?run⟩
  case run =>
    simp only [cc2__gcs_kernel_eq_skeleton]; unfold cc2__gcs_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end C

end body

end Cert.Kernel.Hand

end
-- ==== Proof.K.Gcs2.lean ====
import proofs.«115539_j71236327571877_1_alg».proof.Proof.K.Gcs2Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop := run2_c0 i

-- In the linear order of the 64 grid points (k fastest) the column block is the first at every eighth point,
theorem hcond2_0 : ∀ t : Fin cfg2.N, cond2_0 (grid2.coords t) ↔ t.val % 8 = 0 :=
  (by decide +kernel : ∀ t : Fin grid2.N, cond2_0 (grid2.coords t) ↔ t.val % 8 = 0)

abbrev cond2_1 (i : grid2.Coords) : Prop := run2_c1 i

-- and the last at every eighth point from the eighth.
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel

theorem idleAt2_6_A : ∀ t : Fin cfg2.N, cond2_0 (grid2.coords t) → ¬cond2_1 (grid2.coords t) → cfg2.idle 6 (grid2.coords t) = true := by decide +kernel
theorem noFlush2_6_A : ∀ t : Fin cfg2.N, cond2_0 (grid2.coords t) → ¬cond2_1 (grid2.coords t) → (cfg2.win 6).flush t = false := by decide +kernel

theorem idleAt2_6_B : ∀ t : Fin cfg2.N, ¬cond2_0 (grid2.coords t) → ¬cond2_1 (grid2.coords t) → cfg2.idle 6 (grid2.coords t) = true := by decide +kernel
theorem noFlush2_6_B : ∀ t : Fin cfg2.N, ¬cond2_0 (grid2.coords t) → ¬cond2_1 (grid2.coords t) → (cfg2.win 6).flush t = false := by decide +kernel

theorem liveAt2_6_C : ∀ t : Fin cfg2.N, ¬cond2_0 (grid2.coords t) → cond2_1 (grid2.coords t) → cfg2.idle 6 (grid2.coords t) = false := by decide +kernel

abbrev VO2_6 : View sig .tc .vmem S2048x32 .f32 := (Memref.whole cc2_stg6_0 : Memref sig .tc .vmem S2048x32 .f32).view

abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x32 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S32x32 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x32 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x32 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S2048x32 .f32 := win2_6.stage (cfg2.slots t 6)
abbrev hs2_6 (t : Fin cfg2.N) : (ms2_6 t).IsWhole := hstage2_6 ((cfg2.slots t 6).cast nbuf2_6)

abbrev scM2_0 : Memref sig .tc .vmem S2048x32 .f32 := Memref.whole cc2_scratch0

abbrev VS2_0 : View sig .tc .vmem S2048x32 .f32 := scM2_0.view

theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

section body
variable (c : Dev nD) (i : grid2.Coords) (arg2 : Memref sig .tc .vmem S2048x2048 .bf16) (harg2 : arg2.IsWhole) (arg3 : Memref sig .tc .vmem S2048x32 .f32) (harg3 : arg3.IsWhole) (arg4 : Memref sig .tc .vmem S2048x64 .f32) (harg4 : arg4.IsWhole) (arg5 : Memref sig .tc .vmem S32x32 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole)

section A
variable (hc0 : cond2_0 i) (hc1 : ¬cond2_1 i) (x0 : Vec F S2048x2048 .bf16) (x1 : Vec F S2048x32 .f32) (x2 : Vec F S2048x64 .f32) (x3 : Vec F S32x32 .f32) (x4 : Vec F S64x32 .f32) (x5 : Vec F S1x32 .f32)

def out2_A_6 : Vec F S2048x32 .f32 :=
  VO2_6.read (Elt F) (VO2_6.writes (Elt F) VO2_6.junk (kernelRun2_A c i arg2 harg2 arg3 harg3 arg4 harg4 arg5 harg5 arg6 harg6 arg7 harg7 arg8 harg8 arg9 harg9 hc0 hc1 x0 x1 x2 x3 x4 x5).1)

theorem scover2_A_0 (y : S2048x32.Idx) :
    ∃ pc ∈ (kernelRun2_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun2_A c i arg2 harg2 arg3 harg3 arg4 harg4 arg5 harg5 arg6 harg6 arg7 harg7 arg8 harg8 arg9 harg9 hc0 hc1 x0 x1 x2 x3 x4 x5).2.1 S2048x32.size (by sl_kernel_rfl) y

def sout2_A_0 : Vec F S2048x32 .f32 :=
  VS2_0.read (Elt F) (VS2_0.writes (Elt F) VS2_0.junk (kernelRun2_A c i arg2 harg2 arg3 harg3 arg4 harg4 arg5 harg5 arg6 harg6 arg7 harg7 arg8 harg8 arg9 harg9 hc0 hc1 x0 x1 x2 x3 x4 x5).2.1)

end A

section B
variable (hc0 : ¬cond2_0 i) (hc1 : ¬cond2_1 i) (x0 : Vec F S2048x2048 .bf16) (x1 : Vec F S2048x32 .f32) (x2 : Vec F S2048x64 .f32) (x3 : Vec F S32x32 .f32) (x4 : Vec F S64x32 .f32) (x5 : Vec F S1x32 .f32) (xs0 : Vec F S2048x32 .f32)

def out2_B_6 : Vec F S2048x32 .f32 :=
  VO2_6.read (Elt F) (VO2_6.writes (Elt F) VO2_6.junk (kernelRun2_B c i arg2 harg2 arg3 harg3 arg4 harg4 arg5 harg5 arg6 harg6 arg7 harg7 arg8 harg8 arg9 harg9 hc0 hc1 x0 x1 x2 x3 x4 x5 xs0).1)

theorem scover2_B_0 (y : S2048x32.Idx) :
    ∃ pc ∈ (kernelRun2_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_B c i arg2 harg2 arg3 harg3 arg4 harg4 arg5 harg5 arg6 harg6 arg7 harg7 arg8 harg8 arg9 harg9 hc0 hc1 x0 x1 x2 x3 x4 x5 xs0).2.1 S2048x32.size (by sl_kernel_rfl) y

def sout2_B_0 : Vec F S2048x32 .f32 :=
  VS2_0.read (Elt F) (VS2_0.writes (Elt F) VS2_0.junk (kernelRun2_B c i arg2 harg2 arg3 harg3 arg4 harg4 arg5 harg5 arg6 harg6 arg7 harg7 arg8 harg8 arg9 harg9 hc0 hc1 x0 x1 x2 x3 x4 x5 xs0).2.1)

end B

section C
variable (hc0 : ¬cond2_0 i) (hc1 : cond2_1 i) (x0 : Vec F S2048x2048 .bf16) (x1 : Vec F S2048x32 .f32) (x2 : Vec F S2048x64 .f32) (x3 : Vec F S32x32 .f32) (x4 : Vec F S64x32 .f32) (x5 : Vec F S1x32 .f32) (xs0 : Vec F S2048x32 .f32)

theorem cover2_C_6 (y : S2048x32.Idx) :
    ∃ pc ∈ (kernelRun2_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).1 S2048x32.size (by sl_kernel_rfl) y

def out2_C_6 : Vec F S2048x32 .f32 :=
  VO2_6.read (Elt F) (VO2_6.writes (Elt F) VO2_6.junk (kernelRun2_C c i arg2 harg2 arg3 harg3 arg4 harg4 arg5 harg5 arg6 harg6 arg7 harg7 arg8 harg8 arg9 harg9 hc0 hc1 x0 x1 x2 x3 x4 x5 xs0).1)

theorem scover2_C_0 (y : S2048x32.Idx) :
    ∃ pc ∈ (kernelRun2_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).2.1 S2048x32.size (by sl_kernel_rfl) y

def sout2_C_0 : Vec F S2048x32 .f32 :=
  VS2_0.read (Elt F) (VS2_0.writes (Elt F) VS2_0.junk (kernelRun2_C c i arg2 harg2 arg3 harg3 arg4 harg4 arg5 harg5 arg6 harg6 arg7 harg7 arg8 harg8 arg9 harg9 hc0 hc1 x0 x1 x2 x3 x4 x5 xs0).2.1)

end C

end body

variable (V : (c : Dev nD) → (b : Ref sig .tc) → Buf (Elt F) ((c : Thread nD τ).loc b))

def q2 : Fin cfg2.W → PosShare TreeShare := fun w => fullShare

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rest2 (c : Dev nD) : sProp 𝕄 := Pipeline.scopedRestBut (Ix := Unit) (Name := ℕ) (U := UR sig nD τ) (Lvl := ℕ) (Val := Elt F) spec2 c [cc2_scratch0]

def pairA2 (c : Dev nD) (t : Fin cfg2.N) (h0 : t.val % 8 = 0) (h1 : ¬t.val % 8 = 7) : Vec F S2048x32 .f32 × Vec F S2048x32 .f32 :=
  (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t),
   sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t))

def pairB2 (c : Dev nD) (t : Fin cfg2.N) (h0 : ¬t.val % 8 = 0) (h1 : ¬t.val % 8 = 7) (xs0 : Vec F S2048x32 .f32) : Vec F S2048x32 .f32 × Vec F S2048x32 .f32 :=
  (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) xs0,
   sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) xs0)

def pairC2 (c : Dev nD) (t : Fin cfg2.N) (h0 : ¬t.val % 8 = 0) (h1 : t.val % 8 = 7) (xs0 : Vec F S2048x32 .f32) : Vec F S2048x32 .f32 × Vec F S2048x32 .f32 :=
  (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) xs0,
   sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) xs0)

-- What the output block and the accumulator hold after the n-th point: a point with k = 0 starts afresh, any other continues from what the point before left.
def outsAt2 (V : (c : Dev nD) → (b : Ref sig .tc) → Buf (Elt F) ((c : Thread nD τ).loc b)) (c : Dev nD) : (n : ℕ) → n < cfg2.N → Vec F S2048x32 .f32 × Vec F S2048x32 .f32
  | 0, hn => pairA2 V c ⟨0, hn⟩ (Nat.zero_mod _) (fun h => by (try dsimp only at h); omega)
  | n + 1, hn =>
    if h0 : (n + 1) % 8 = 0 then
      if h1 : (n + 1) % 8 = 7 then
        False.elim (by omega)
      else
        pairA2 V c ⟨n + 1, hn⟩ h0 h1
    else
      if h1 : (n + 1) % 8 = 7 then
        pairC2 V c ⟨n + 1, hn⟩ h0 h1 (outsAt2 V c n (Nat.lt_of_succ_lt hn)).2
      else
        pairB2 V c ⟨n + 1, hn⟩ h0 h1 (outsAt2 V c n (Nat.lt_of_succ_lt hn)).2

theorem outsAt2_A (c : Dev nD) (t : Fin cfg2.N) (h0 : t.val % 8 = 0) (h1 : ¬t.val % 8 = 7) :
    outsAt2 V c t.val t.isLt = pairA2 V c t h0 h1 := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = pairB2 V c t h0 h1 (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = pairC2 V c t h0 h1 (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

-- Between points the accumulator is owned at exactly what the point before left in it.
def PhiS2 (V : (c : Dev nD) → (b : Ref sig .tc) → Buf (Elt F) ((c : Thread nD τ).loc b)) (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 (F := F) c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q w := q2 w
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)

theorem leaves2_0 (c : Dev nD) (t : Fin cfg2.N) : (dat2 V c).leavesExact 0 t = owns (c : Thread nD τ) (ms2_0 t) fullShare (iblk2 V c 0 t) := by
  rw [← after2_0]; first | done | (unfold Dat.leavesExact; rw [liveAt2_0 t])
theorem leaves2_1 (c : Dev nD) (t : Fin cfg2.N) : (dat2 V c).leavesExact 1 t = owns (c : Thread nD τ) (ms2_1 t) fullShare (iblk2 V c 1 t) := by
  rw [← after2_1]; first | done | (unfold Dat.leavesExact; rw [liveAt2_1 t])
theorem leaves2_2 (c : Dev nD) (t : Fin cfg2.N) : (dat2 V c).leavesExact 2 t = owns (c : Thread nD τ) (ms2_2 t) fullShare (iblk2 V c 2 t) := by
  rw [← after2_2]; first | done | (unfold Dat.leavesExact; rw [liveAt2_2 t])
theorem leaves2_3 (c : Dev nD) (t : Fin cfg2.N) : (dat2 V c).leavesExact 3 t = owns (c : Thread nD τ) (ms2_3 t) fullShare (iblk2 V c 3 t) := by
  rw [← after2_3]; first | done | (unfold Dat.leavesExact; rw [liveAt2_3 t])
theorem leaves2_4 (c : Dev nD) (t : Fin cfg2.N) : (dat2 V c).leavesExact 4 t = owns (c : Thread nD τ) (ms2_4 t) fullShare (iblk2 V c 4 t) := by
  rw [← after2_4]; first | done | (unfold Dat.leavesExact; rw [liveAt2_4 t])
theorem leaves2_5 (c : Dev nD) (t : Fin cfg2.N) : (dat2 V c).leavesExact 5 t = owns (c : Thread nD τ) (ms2_5 t) fullShare (iblk2 V c 5 t) := by
  rw [← after2_5]; first | done | (unfold Dat.leavesExact; rw [liveAt2_5 t])

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

-- The body takes the invariant before a point to the invariant after it; the position modulo 8 says which of the three runs applies.
set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5, PhiS2_castSucc V c t]
  have hN : t.val < 64 := lt_of_lt_of_eq t.isLt (show cfg2.N = 64 from N_2)
  by_cases h0 : t.val % 8 = 0
  · have h1 : ¬t.val % 8 = 7 := by omega
    have hc0 := (hcond2_0 t).mpr h0
    have hc1 : ¬cond2_1 (grid2.coords t) := fun h => h1 ((hcond2_1 t).mp h)
    rw [Dat.leavesExact_idle (dat2 V c) 6 t (idleAt2_6_A t hc0 hc1) (noFlush2_6_A t hc0 hc1), outsAt2_A V c t h0 h1]
    unfold pairA2 sout2_A_0; (try dsimp only)
    by_cases hz : t.val = 0
    on_goal 1 => rw [PhiS2_zero V c _ _ hz, PhiA2_eq]
    on_goal 2 => rw [PhiS2_pos V c _ _ hz]
    all_goals
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_A c (grid2.coords t) _ _ _ _ _ _ _ _ _ _ _ _ _ _ _ _ hc0 hc1 (iblk2 V c 0 t) (iblk2 V c 1 t) (iblk2 V c 2 t) (iblk2 V c 3 t) (iblk2 V c 4 t) (iblk2 V c 5 t)).2.2 _ Set.univ _)
      iframe H0 H1 H2 H3 H4 H5 H6
      isplitl [HS0]; · first | iexact HS0 | (iexists _; iexact HS0)
      iintro ⟨H0, H1, H2, H3, H4, H5, H6, ⟨%es0, HS0⟩⟩
      iframe Hr Hg Ho H0 H1 H2 H3 H4 H5
      isplitl [HS0]
      · unfold owns; iexists _; isplitr
        swap; · iexact HS0
        ipureintro; exact View.read_writes_of_cover _ _ _ _ _ (scover2_A_0 c _ _ _ _ _ _ _ _ _ _ _ _ _ _ _ _ _ _ _ _ _ _ _ _ _)
      iexists _; iexact H6
  · have hc0 : ¬cond2_0 (grid2.coords t) := fun h => h0 ((hcond2_0 t).mp h)
    have hz : t.val ≠ 0 := fun h => h0 (by rw [h])
    rw [PhiS2_pos V c _ _ hz]
    by_cases h1 : t.val % 8 = 7
    · have hc1 := (hcond2_1 t).mpr h1
      rw [show (dat2 V c).leavesExact 6 t = owns (c : Thread nD τ) (ms2_6 t) fullShare ((dat2 V c).after 6 t) from by
        unfold Dat.leavesExact; rw [liveAt2_6_C t hc0 hc1], after2_6, outsAt2_C V c t h0 h1]
      unfold pairC2 out2_C_6 sout2_C_0; (try dsimp only)
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) _ _ _ _ _ _ _ _ _ _ _ _ _ _ _ _ hc0 hc1 (iblk2 V c 0 t) (iblk2 V c 1 t) (iblk2 V c 2 t) (iblk2 V c 3 t) (iblk2 V c 4 t) (iblk2 V c 5 t) _).2.2 Set.univ _)
      iframe H0 H1 H2 H3 H4 H5 HS0
      isplitl [H6]; · iexists _; iexact H6
      iintro ⟨H0, H1, H2, H3, H4, H5, ⟨%e6, H6⟩, ⟨%es0, HS0⟩⟩
      iframe Hr Hg Ho H0 H1 H2 H3 H4 H5
      isplitl [HS0]
      · unfold owns; iexists _; isplitr
        swap; · iexact HS0
        ipureintro; exact View.read_writes_of_cover _ _ _ _ _ (scover2_C_0 c _ _ _ _ _ _ _ _ _ _ _ _ _ _ _ _ _ _ _ _ _ _ _ _ _ _)
      unfold owns; iexists _; isplitr
      swap; · iexact H6
      ipureintro; exact View.read_writes_of_cover _ _ _ _ _ (cover2_C_6 c _ _ _ _ _ _ _ _ _ _ _ _ _ _ _ _ _ _ _ _ _ _ _ _ _ _)
    · have hc1 : ¬cond2_1 (grid2.coords t) := fun h => h1 ((hcond2_1 t).mp h)
      rw [Dat.leavesExact_idle (dat2 V c) 6 t (idleAt2_6_B t hc0 hc1) (noFlush2_6_B t hc0 hc1), outsAt2_B V c t h0 h1]
      unfold pairB2 sout2_B_0; (try dsimp only)
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) _ _ _ _ _ _ _ _ _ _ _ _ _ _ _ _ hc0 hc1 (iblk2 V c 0 t) (iblk2 V c 1 t) (iblk2 V c 2 t) (iblk2 V c 3 t) (iblk2 V c 4 t) (iblk2 V c 5 t) _).2.2 _ Set.univ _)
      iframe H0 H1 H2 H3 H4 H5 H6 HS0
      iintro ⟨H0, H1, H2, H3, H4, H5, H6, ⟨%es0, HS0⟩⟩
      iframe Hr Hg Ho H0 H1 H2 H3 H4 H5
      isplitl [HS0]
      · unfold owns; iexists _; isplitr
        swap; · iexact HS0
        ipureintro; exact View.read_writes_of_cover _ _ _ _ _ (scover2_B_0 c _ _ _ _ _ _ _ _ _ _ _ _ _ _ _ _ _ _ _ _ _ _ _ _ _ _)
      iexists _; iexact H6

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

theorem hout2 (c : Dev nD) : (dat2 V c).Φ (Fin.last cfg2.N) ⊢ Pipeline.ΦA spec2 c :=
  Phi_out2 V c _ (by rw [Fin.val_last]; have : cfg2.N = 64 := N_2; omega)

end Cert.Kernel.Hand

end
-- ==== Proof.K.Gcs3.lean ====
import proofs.«115539_j71236327571877_1_alg».proof.Proof.K.Gcs1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond3_0 (i : grid3.Coords) : Prop := run1_c0 i

-- In the linear order of the 64 grid points (k fastest) the column block is the first at every eighth point,
theorem hcond3_0 : ∀ t : Fin cfg3.N, cond3_0 (grid3.coords t) ↔ t.val % 8 = 0 :=
  (by decide +kernel : ∀ t : Fin grid3.N, cond3_0 (grid3.coords t) ↔ t.val % 8 = 0)

abbrev cond3_1 (i : grid3.Coords) : Prop := run1_c1 i

-- and the last at every eighth point from the eighth.
theorem hcond3_1 : ∀ t : Fin cfg3.N, cond3_1 (grid3.coords t) ↔ t.val % 8 = 7 :=
  (by decide +kernel : ∀ t : Fin grid3.N, cond3_1 (grid3.coords t) ↔ t.val % 8 = 7)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel

theorem idleAt3_6_A : ∀ t : Fin cfg3.N, cond3_0 (grid3.coords t) → ¬cond3_1 (grid3.coords t) → cfg3.idle 6 (grid3.coords t) = true := by decide +kernel
theorem noFlush3_6_A : ∀ t : Fin cfg3.N, cond3_0 (grid3.coords t) → ¬cond3_1 (grid3.coords t) → (cfg3.win 6).flush t = false := by decide +kernel

theorem idleAt3_6_B : ∀ t : Fin cfg3.N, ¬cond3_0 (grid3.coords t) → ¬cond3_1 (grid3.coords t) → cfg3.idle 6 (grid3.coords t) = true := by decide +kernel
theorem noFlush3_6_B : ∀ t : Fin cfg3.N, ¬cond3_0 (grid3.coords t) → ¬cond3_1 (grid3.coords t) → (cfg3.win 6).flush t = false := by decide +kernel

theorem liveAt3_6_C : ∀ t : Fin cfg3.N, ¬cond3_0 (grid3.coords t) → cond3_1 (grid3.coords t) → cfg3.idle 6 (grid3.coords t) = false := by decide +kernel

abbrev VO3_6 : View sig .tc .vmem S2048x32 .f32 := (Memref.whole cc3_stg6_0 : Memref sig .tc .vmem S2048x32 .f32).view

abbrev ms3_0 (t : Fin cfg3.N) : Memref sig .tc .vmem S2048x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S64x32 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S64x32 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x32 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S2048x32 .f32 := win3_6.stage (cfg3.slots t 6)
abbrev hs3_6 (t : Fin cfg3.N) : (ms3_6 t).IsWhole := hstage3_6 ((cfg3.slots t 6).cast nbuf3_6)

abbrev scM3_0 : Memref sig .tc .vmem S2048x32 .f32 := Memref.whole cc3_scratch0

abbrev VS3_0 : View sig .tc .vmem S2048x32 .f32 := scM3_0.view

theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

section body
variable (c : Dev nD) (i : grid3.Coords) (arg2 : Memref sig .tc .vmem S2048x2048 .bf16) (harg2 : arg2.IsWhole) (arg3 : Memref sig .tc .vmem S2048x64 .f32) (harg3 : arg3.IsWhole) (arg4 : Memref sig .tc .vmem S2048x64 .f32) (harg4 : arg4.IsWhole) (arg5 : Memref sig .tc .vmem S64x32 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole)

section A
variable (hc0 : cond3_0 i) (hc1 : ¬cond3_1 i) (x0 : Vec F S2048x2048 .bf16) (x1 : Vec F S2048x64 .f32) (x2 : Vec F S2048x64 .f32) (x3 : Vec F S64x32 .f32) (x4 : Vec F S64x32 .f32) (x5 : Vec F S1x32 .f32)

def out3_A_6 : Vec F S2048x32 .f32 :=
  VO3_6.read (Elt F) (VO3_6.writes (Elt F) VO3_6.junk (kernelRun1_A c i arg2 harg2 arg3 harg3 arg4 harg4 arg5 harg5 arg6 harg6 arg7 harg7 arg8 harg8 arg9 harg9 hc0 hc1 x0 x1 x2 x3 x4 x5).1)

theorem scover3_A_0 (y : S2048x32.Idx) :
    ∃ pc ∈ (kernelRun1_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).2.1 S2048x32.size (by sl_kernel_rfl) y

def sout3_A_0 : Vec F S2048x32 .f32 :=
  VS3_0.read (Elt F) (VS3_0.writes (Elt F) VS3_0.junk (kernelRun1_A c i arg2 harg2 arg3 harg3 arg4 harg4 arg5 harg5 arg6 harg6 arg7 harg7 arg8 harg8 arg9 harg9 hc0 hc1 x0 x1 x2 x3 x4 x5).2.1)

end A

section B
variable (hc0 : ¬cond3_0 i) (hc1 : ¬cond3_1 i) (x0 : Vec F S2048x2048 .bf16) (x1 : Vec F S2048x64 .f32) (x2 : Vec F S2048x64 .f32) (x3 : Vec F S64x32 .f32) (x4 : Vec F S64x32 .f32) (x5 : Vec F S1x32 .f32) (xs0 : Vec F S2048x32 .f32)

def out3_B_6 : Vec F S2048x32 .f32 :=
  VO3_6.read (Elt F) (VO3_6.writes (Elt F) VO3_6.junk (kernelRun1_B c i arg2 harg2 arg3 harg3 arg4 harg4 arg5 harg5 arg6 harg6 arg7 harg7 arg8 harg8 arg9 harg9 hc0 hc1 x0 x1 x2 x3 x4 x5 xs0).1)

theorem scover3_B_0 (y : S2048x32.Idx) :
    ∃ pc ∈ (kernelRun1_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).2.1 S2048x32.size (by sl_kernel_rfl) y

def sout3_B_0 : Vec F S2048x32 .f32 :=
  VS3_0.read (Elt F) (VS3_0.writes (Elt F) VS3_0.junk (kernelRun1_B c i arg2 harg2 arg3 harg3 arg4 harg4 arg5 harg5 arg6 harg6 arg7 harg7 arg8 harg8 arg9 harg9 hc0 hc1 x0 x1 x2 x3 x4 x5 xs0).2.1)

end B

section C
variable (hc0 : ¬cond3_0 i) (hc1 : cond3_1 i) (x0 : Vec F S2048x2048 .bf16) (x1 : Vec F S2048x64 .f32) (x2 : Vec F S2048x64 .f32) (x3 : Vec F S64x32 .f32) (x4 : Vec F S64x32 .f32) (x5 : Vec F S1x32 .f32) (xs0 : Vec F S2048x32 .f32)

theorem cover3_C_6 (y : S2048x32.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S2048x32.size (by sl_kernel_rfl) y

def out3_C_6 : Vec F S2048x32 .f32 :=
  VO3_6.read (Elt F) (VO3_6.writes (Elt F) VO3_6.junk (kernelRun1_C c i arg2 harg2 arg3 harg3 arg4 harg4 arg5 harg5 arg6 harg6 arg7 harg7 arg8 harg8 arg9 harg9 hc0 hc1 x0 x1 x2 x3 x4 x5 xs0).1)

theorem scover3_C_0 (y : S2048x32.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S2048x32.size (by sl_kernel_rfl) y

def sout3_C_0 : Vec F S2048x32 .f32 :=
  VS3_0.read (Elt F) (VS3_0.writes (Elt F) VS3_0.junk (kernelRun1_C c i arg2 harg2 arg3 harg3 arg4 harg4 arg5 harg5 arg6 harg6 arg7 harg7 arg8 harg8 arg9 harg9 hc0 hc1 x0 x1 x2 x3 x4 x5 xs0).2.1)

end C

end body

variable (V : (c : Dev nD) → (b : Ref sig .tc) → Buf (Elt F) ((c : Thread nD τ).loc b))

def q3 : Fin cfg3.W → PosShare TreeShare := fun w => if w = 1 then fullShare.left else if w = 2 then fullShare.right else fullShare

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rest3 (c : Dev nD) : sProp 𝕄 := Pipeline.scopedRestBut (Ix := Unit) (Name := ℕ) (U := UR sig nD τ) (Lvl := ℕ) (Val := Elt F) spec3 c [cc3_scratch0]

def pairA3 (c : Dev nD) (t : Fin cfg3.N) (h0 : t.val % 8 = 0) (h1 : ¬t.val % 8 = 7) : Vec F S2048x32 .f32 × Vec F S2048x32 .f32 :=
  (out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t),
   sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t))

def pairB3 (c : Dev nD) (t : Fin cfg3.N) (h0 : ¬t.val % 8 = 0) (h1 : ¬t.val % 8 = 7) (xs0 : Vec F S2048x32 .f32) : Vec F S2048x32 .f32 × Vec F S2048x32 .f32 :=
  (out3_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) xs0,
   sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) xs0)

def pairC3 (c : Dev nD) (t : Fin cfg3.N) (h0 : ¬t.val % 8 = 0) (h1 : t.val % 8 = 7) (xs0 : Vec F S2048x32 .f32) : Vec F S2048x32 .f32 × Vec F S2048x32 .f32 :=
  (out3_C_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) xs0,
   sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) xs0)

-- What the output block and the accumulator hold after the n-th point: a point with k = 0 starts afresh, any other continues from what the point before left.
def outsAt3 (V : (c : Dev nD) → (b : Ref sig .tc) → Buf (Elt F) ((c : Thread nD τ).loc b)) (c : Dev nD) : (n : ℕ) → n < cfg3.N → Vec F S2048x32 .f32 × Vec F S2048x32 .f32
  | 0, hn => pairA3 V c ⟨0, hn⟩ (Nat.zero_mod _) (fun h => by (try dsimp only at h); omega)
  | n + 1, hn =>
    if h0 : (n + 1) % 8 = 0 then
      if h1 : (n + 1) % 8 = 7 then
        False.elim (by omega)
      else
        pairA3 V c ⟨n + 1, hn⟩ h0 h1
    else
      if h1 : (n + 1) % 8 = 7 then
        pairC3 V c ⟨n + 1, hn⟩ h0 h1 (outsAt3 V c n (Nat.lt_of_succ_lt hn)).2
      else
        pairB3 V c ⟨n + 1, hn⟩ h0 h1 (outsAt3 V c n (Nat.lt_of_succ_lt hn)).2

theorem outsAt3_A (c : Dev nD) (t : Fin cfg3.N) (h0 : t.val % 8 = 0) (h1 : ¬t.val % 8 = 7) :
    outsAt3 V c t.val t.isLt = pairA3 V c t h0 h1 := by
  obtain ⟨n, hn⟩ := t
  cases n with
  | zero => exact rfl
  | succ n => exact (dif_pos h0).trans ((dif_neg h1).trans rfl)

theorem outsAt3_B (c : Dev nD) (t : Fin cfg3.N) (h0 : ¬t.val % 8 = 0) (h1 : ¬t.val % 8 = 7) :
    outsAt3 V c t.val t.isLt = pairB3 V c t h0 h1 (outsAt3 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 8 = 0) (h1 : t.val % 8 = 7) :
    outsAt3 V c t.val t.isLt = pairC3 V c t h0 h1 (outsAt3 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

-- Between points the accumulator is owned at exactly what the point before left in it.
def PhiS3 (V : (c : Dev nD) → (b : Ref sig .tc) → Buf (Elt F) ((c : Thread nD τ).loc b)) (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ rest3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ rest3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ rest3 (F := F) c) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => (outsAt3 V c t.val t.isLt).1
  Φ t := PhiS3 V c t.val (Nat.le_of_lt_succ t.isLt)
  q w := q3 w
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = (outsAt3 V c t.val t.isLt).1 := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)

theorem leaves3_0 (c : Dev nD) (t : Fin cfg3.N) : (dat3 V c).leavesExact 0 t = owns (c : Thread nD τ) (ms3_0 t) fullShare (iblk3 V c 0 t) := by
  rw [← after3_0]; first | done | (unfold Dat.leavesExact; rw [liveAt3_0 t])
theorem leaves3_1 (c : Dev nD) (t : Fin cfg3.N) : (dat3 V c).leavesExact 1 t = owns (c : Thread nD τ) (ms3_1 t) fullShare (iblk3 V c 1 t) := by
  rw [← after3_1]; first | done | (unfold Dat.leavesExact; rw [liveAt3_1 t])
theorem leaves3_2 (c : Dev nD) (t : Fin cfg3.N) : (dat3 V c).leavesExact 2 t = owns (c : Thread nD τ) (ms3_2 t) fullShare (iblk3 V c 2 t) := by
  rw [← after3_2]; first | done | (unfold Dat.leavesExact; rw [liveAt3_2 t])
theorem leaves3_3 (c : Dev nD) (t : Fin cfg3.N) : (dat3 V c).leavesExact 3 t = owns (c : Thread nD τ) (ms3_3 t) fullShare (iblk3 V c 3 t) := by
  rw [← after3_3]; first | done | (unfold Dat.leavesExact; rw [liveAt3_3 t])
theorem leaves3_4 (c : Dev nD) (t : Fin cfg3.N) : (dat3 V c).leavesExact 4 t = owns (c : Thread nD τ) (ms3_4 t) fullShare (iblk3 V c 4 t) := by
  rw [← after3_4]; first | done | (unfold Dat.leavesExact; rw [liveAt3_4 t])
theorem leaves3_5 (c : Dev nD) (t : Fin cfg3.N) : (dat3 V c).leavesExact 5 t = owns (c : Thread nD τ) (ms3_5 t) fullShare (iblk3 V c 5 t) := by
  rw [← after3_5]; first | done | (unfold Dat.leavesExact; rw [liveAt3_5 t])

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

-- The body takes the invariant before a point to the invariant after it; the position modulo 8 says which of the three runs applies.
set_option maxHeartbeats 8000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3; rw [show @cc3__gcs_kernel F _ = @cc1__gcs_kernel F _ from rfl]
  simp only [before3_0, before3_1, before3_2, before3_3, before3_4, before3_5]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3, leaves3_4, leaves3_5, PhiS3_castSucc V c t]
  have hN : t.val < 64 := lt_of_lt_of_eq t.isLt (show cfg3.N = 64 from N_3)
  by_cases h0 : t.val % 8 = 0
  · have h1 : ¬t.val % 8 = 7 := by omega
    have hc0 := (hcond3_0 t).mpr h0
    have hc1 : ¬cond3_1 (grid3.coords t) := fun h => h1 ((hcond3_1 t).mp h)
    rw [Dat.leavesExact_idle (dat3 V c) 6 t (idleAt3_6_A t hc0 hc1) (noFlush3_6_A t hc0 hc1), outsAt3_A V c t h0 h1]
    unfold pairA3 sout3_A_0; (try dsimp only)
    by_cases hz : t.val = 0
    on_goal 1 => rw [PhiS3_zero V c _ _ hz, PhiA3_eq]
    on_goal 2 => rw [PhiS3_pos V c _ _ hz]
    all_goals
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid3.coords t) _ _ _ _ _ _ _ _ _ _ _ _ _ _ _ _ hc0 hc1 (iblk3 V c 0 t) (iblk3 V c 1 t) (iblk3 V c 2 t) (iblk3 V c 3 t) (iblk3 V c 4 t) (iblk3 V c 5 t)).2.2 _ Set.univ _)
      iframe H0 H1 H2 H3 H4 H5 H6
      isplitl [HS0]; · first | iexact HS0 | (iexists _; iexact HS0)
      iintro ⟨H0, H1, H2, H3, H4, H5, H6, ⟨%es0, HS0⟩⟩
      iframe Hr Hg Ho H0 H1 H2 H3 H4 H5
      isplitl [HS0]
      · unfold owns; iexists _; isplitr
        swap; · iexact HS0
        ipureintro; exact View.read_writes_of_cover _ _ _ _ _ (scover3_A_0 c _ _ _ _ _ _ _ _ _ _ _ _ _ _ _ _ _ _ _ _ _ _ _ _ _)
      iexists _; iexact H6
  · have hc0 : ¬cond3_0 (grid3.coords t) := fun h => h0 ((hcond3_0 t).mp h)
    have hz : t.val ≠ 0 := fun h => h0 (by rw [h])
    rw [PhiS3_pos V c _ _ hz]
    by_cases h1 : t.val % 8 = 7
    · have hc1 := (hcond3_1 t).mpr h1
      rw [show (dat3 V c).leavesExact 6 t = owns (c : Thread nD τ) (ms3_6 t) fullShare ((dat3 V c).after 6 t) from by
        unfold Dat.leavesExact; rw [liveAt3_6_C t hc0 hc1], after3_6, outsAt3_C V c t h0 h1]
      unfold pairC3 out3_C_6 sout3_C_0; (try dsimp only)
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid3.coords t) _ _ _ _ _ _ _ _ _ _ _ _ _ _ _ _ hc0 hc1 (iblk3 V c 0 t) (iblk3 V c 1 t) (iblk3 V c 2 t) (iblk3 V c 3 t) (iblk3 V c 4 t) (iblk3 V c 5 t) _).2.2 Set.univ _)
      iframe H0 H1 H2 H3 H4 H5 HS0
      isplitl [H6]; · iexists _; iexact H6
      iintro ⟨H0, H1, H2, H3, H4, H5, ⟨%e6, H6⟩, ⟨%es0, HS0⟩⟩
      iframe Hr Hg Ho H0 H1 H2 H3 H4 H5
      isplitl [HS0]
      · unfold owns; iexists _; isplitr
        swap; · iexact HS0
        ipureintro; exact View.read_writes_of_cover _ _ _ _ _ (scover3_C_0 c _ _ _ _ _ _ _ _ _ _ _ _ _ _ _ _ _ _ _ _ _ _ _ _ _ _)
      unfold owns; iexists _; isplitr
      swap; · iexact H6
      ipureintro; exact View.read_writes_of_cover _ _ _ _ _ (cover3_C_6 c _ _ _ _ _ _ _ _ _ _ _ _ _ _ _ _ _ _ _ _ _ _ _ _ _ _)
    · have hc1 : ¬cond3_1 (grid3.coords t) := fun h => h1 ((hcond3_1 t).mp h)
      rw [Dat.leavesExact_idle (dat3 V c) 6 t (idleAt3_6_B t hc0 hc1) (noFlush3_6_B t hc0 hc1), outsAt3_B V c t h0 h1]
      unfold pairB3 sout3_B_0; (try dsimp only)
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid3.coords t) _ _ _ _ _ _ _ _ _ _ _ _ _ _ _ _ hc0 hc1 (iblk3 V c 0 t) (iblk3 V c 1 t) (iblk3 V c 2 t) (iblk3 V c 3 t) (iblk3 V c 4 t) (iblk3 V c 5 t) _).2.2 _ Set.univ _)
      iframe H0 H1 H2 H3 H4 H5 H6 HS0
      iintro ⟨H0, H1, H2, H3, H4, H5, H6, ⟨%es0, HS0⟩⟩
      iframe Hr Hg Ho H0 H1 H2 H3 H4 H5
      isplitl [HS0]
      · unfold owns; iexists _; isplitr
        swap; · iexact HS0
        ipureintro; exact View.read_writes_of_cover _ _ _ _ _ (scover3_B_0 c _ _ _ _ _ _ _ _ _ _ _ _ _ _ _ _ _ _ _ _ _ _ _ _ _ _)
      iexists _; iexact H6

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hr⟩, Hg⟩
  isplitl [HS0 Hr]
  · isplitl [HS0]
    · iexists _; iexact HS0
    iexact Hr
  iexact Hg

theorem hout3 (c : Dev nD) : (dat3 V c).Φ (Fin.last cfg3.N) ⊢ Pipeline.ΦA spec3 c :=
  Phi_out3 V c _ (by rw [Fin.val_last]; have : cfg3.N = 64 := N_3; omega)

end Cert.Kernel.Hand

end
-- ==== Proof.K.Gcs4.lean ====
import proofs.«115539_j71236327571877_1_alg».proof.Proof.K.Gcs2Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond4_0 (i : grid4.Coords) : Prop := run2_c0 i

-- In the linear order of the 64 grid points (k fastest) the column block is the first at every eighth point,
theorem hcond4_0 : ∀ t : Fin cfg4.N, cond4_0 (grid4.coords t) ↔ t.val % 8 = 0 :=
  (by decide +kernel : ∀ t : Fin grid4.N, cond4_0 (grid4.coords t) ↔ t.val % 8 = 0)

abbrev cond4_1 (i : grid4.Coords) : Prop := run2_c1 i

-- and the last at every eighth point from the eighth.
theorem hcond4_1 : ∀ t : Fin cfg4.N, cond4_1 (grid4.coords t) ↔ t.val % 8 = 7 :=
  (by decide +kernel : ∀ t : Fin grid4.N, cond4_1 (grid4.coords t) ↔ t.val % 8 = 7)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel

theorem idleAt4_6_A : ∀ t : Fin cfg4.N, cond4_0 (grid4.coords t) → ¬cond4_1 (grid4.coords t) → cfg4.idle 6 (grid4.coords t) = true := by decide +kernel
theorem noFlush4_6_A : ∀ t : Fin cfg4.N, cond4_0 (grid4.coords t) → ¬cond4_1 (grid4.coords t) → (cfg4.win 6).flush t = false := by decide +kernel

theorem idleAt4_6_B : ∀ t : Fin cfg4.N, ¬cond4_0 (grid4.coords t) → ¬cond4_1 (grid4.coords t) → cfg4.idle 6 (grid4.coords t) = true := by decide +kernel
theorem noFlush4_6_B : ∀ t : Fin cfg4.N, ¬cond4_0 (grid4.coords t) → ¬cond4_1 (grid4.coords t) → (cfg4.win 6).flush t = false := by decide +kernel

theorem liveAt4_6_C : ∀ t : Fin cfg4.N, ¬cond4_0 (grid4.coords t) → cond4_1 (grid4.coords t) → cfg4.idle 6 (grid4.coords t) = false := by decide +kernel

abbrev VO4_6 : View sig .tc .vmem S2048x32 .f32 := (Memref.whole cc4_stg6_0 : Memref sig .tc .vmem S2048x32 .f32).view

abbrev ms4_0 (t : Fin cfg4.N) : Memref sig .tc .vmem S2048x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x32 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S32x32 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S64x32 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x32 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S2048x32 .f32 := win4_6.stage (cfg4.slots t 6)
abbrev hs4_6 (t : Fin cfg4.N) : (ms4_6 t).IsWhole := hstage4_6 ((cfg4.slots t 6).cast nbuf4_6)

abbrev scM4_0 : Memref sig .tc .vmem S2048x32 .f32 := Memref.whole cc4_scratch0

abbrev VS4_0 : View sig .tc .vmem S2048x32 .f32 := scM4_0.view

theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

section body
variable (c : Dev nD) (i : grid4.Coords) (arg2 : Memref sig .tc .vmem S2048x2048 .bf16) (harg2 : arg2.IsWhole) (arg3 : Memref sig .tc .vmem S2048x32 .f32) (harg3 : arg3.IsWhole) (arg4 : Memref sig .tc .vmem S2048x64 .f32) (harg4 : arg4.IsWhole) (arg5 : Memref sig .tc .vmem S32x32 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole)

section A
variable (hc0 : cond4_0 i) (hc1 : ¬cond4_1 i) (x0 : Vec F S2048x2048 .bf16) (x1 : Vec F S2048x32 .f32) (x2 : Vec F S2048x64 .f32) (x3 : Vec F S32x32 .f32) (x4 : Vec F S64x32 .f32) (x5 : Vec F S1x32 .f32)

def out4_A_6 : Vec F S2048x32 .f32 :=
  VO4_6.read (Elt F) (VO4_6.writes (Elt F) VO4_6.junk (kernelRun2_A c i arg2 harg2 arg3 harg3 arg4 harg4 arg5 harg5 arg6 harg6 arg7 harg7 arg8 harg8 arg9 harg9 hc0 hc1 x0 x1 x2 x3 x4 x5).1)

theorem scover4_A_0 (y : S2048x32.Idx) :
    ∃ pc ∈ (kernelRun2_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun2_A c i arg2 harg2 arg3 harg3 arg4 harg4 arg5 harg5 arg6 harg6 arg7 harg7 arg8 harg8 arg9 harg9 hc0 hc1 x0 x1 x2 x3 x4 x5).2.1 S2048x32.size (by sl_kernel_rfl) y

def sout4_A_0 : Vec F S2048x32 .f32 :=
  VS4_0.read (Elt F) (VS4_0.writes (Elt F) VS4_0.junk (kernelRun2_A c i arg2 harg2 arg3 harg3 arg4 harg4 arg5 harg5 arg6 harg6 arg7 harg7 arg8 harg8 arg9 harg9 hc0 hc1 x0 x1 x2 x3 x4 x5).2.1)

end A

section B
variable (hc0 : ¬cond4_0 i) (hc1 : ¬cond4_1 i) (x0 : Vec F S2048x2048 .bf16) (x1 : Vec F S2048x32 .f32) (x2 : Vec F S2048x64 .f32) (x3 : Vec F S32x32 .f32) (x4 : Vec F S64x32 .f32) (x5 : Vec F S1x32 .f32) (xs0 : Vec F S2048x32 .f32)

def out4_B_6 : Vec F S2048x32 .f32 :=
  VO4_6.read (Elt F) (VO4_6.writes (Elt F) VO4_6.junk (kernelRun2_B c i arg2 harg2 arg3 harg3 arg4 harg4 arg5 harg5 arg6 harg6 arg7 harg7 arg8 harg8 arg9 harg9 hc0 hc1 x0 x1 x2 x3 x4 x5 xs0).1)

theorem scover4_B_0 (y : S2048x32.Idx) :
    ∃ pc ∈ (kernelRun2_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_B c i arg2 harg2 arg3 harg3 arg4 harg4 arg5 harg5 arg6 harg6 arg7 harg7 arg8 harg8 arg9 harg9 hc0 hc1 x0 x1 x2 x3 x4 x5 xs0).2.1 S2048x32.size (by sl_kernel_rfl) y

def sout4_B_0 : Vec F S2048x32 .f32 :=
  VS4_0.read (Elt F) (VS4_0.writes (Elt F) VS4_0.junk (kernelRun2_B c i arg2 harg2 arg3 harg3 arg4 harg4 arg5 harg5 arg6 harg6 arg7 harg7 arg8 harg8 arg9 harg9 hc0 hc1 x0 x1 x2 x3 x4 x5 xs0).2.1)

end B

section C
variable (hc0 : ¬cond4_0 i) (hc1 : cond4_1 i) (x0 : Vec F S2048x2048 .bf16) (x1 : Vec F S2048x32 .f32) (x2 : Vec F S2048x64 .f32) (x3 : Vec F S32x32 .f32) (x4 : Vec F S64x32 .f32) (x5 : Vec F S1x32 .f32) (xs0 : Vec F S2048x32 .f32)

theorem cover4_C_6 (y : S2048x32.Idx) :
    ∃ pc ∈ (kernelRun2_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).1 S2048x32.size (by sl_kernel_rfl) y

def out4_C_6 : Vec F S2048x32 .f32 :=
  VO4_6.read (Elt F) (VO4_6.writes (Elt F) VO4_6.junk (kernelRun2_C c i arg2 harg2 arg3 harg3 arg4 harg4 arg5 harg5 arg6 harg6 arg7 harg7 arg8 harg8 arg9 harg9 hc0 hc1 x0 x1 x2 x3 x4 x5 xs0).1)

theorem scover4_C_0 (y : S2048x32.Idx) :
    ∃ pc ∈ (kernelRun2_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).2.1 S2048x32.size (by sl_kernel_rfl) y

def sout4_C_0 : Vec F S2048x32 .f32 :=
  VS4_0.read (Elt F) (VS4_0.writes (Elt F) VS4_0.junk (kernelRun2_C c i arg2 harg2 arg3 harg3 arg4 harg4 arg5 harg5 arg6 harg6 arg7 harg7 arg8 harg8 arg9 harg9 hc0 hc1 x0 x1 x2 x3 x4 x5 xs0).2.1)

end C

end body

variable (V : (c : Dev nD) → (b : Ref sig .tc) → Buf (Elt F) ((c : Thread nD τ).loc b))

def q4 : Fin cfg4.W → PosShare TreeShare := fun w => fullShare

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rest4 (c : Dev nD) : sProp 𝕄 := Pipeline.scopedRestBut (Ix := Unit) (Name := ℕ) (U := UR sig nD τ) (Lvl := ℕ) (Val := Elt F) spec4 c [cc4_scratch0]

def pairA4 (c : Dev nD) (t : Fin cfg4.N) (h0 : t.val % 8 = 0) (h1 : ¬t.val % 8 = 7) : Vec F S2048x32 .f32 × Vec F S2048x32 .f32 :=
  (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t),
   sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t))

def pairB4 (c : Dev nD) (t : Fin cfg4.N) (h0 : ¬t.val % 8 = 0) (h1 : ¬t.val % 8 = 7) (xs0 : Vec F S2048x32 .f32) : Vec F S2048x32 .f32 × Vec F S2048x32 .f32 :=
  (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) xs0,
   sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) xs0)

def pairC4 (c : Dev nD) (t : Fin cfg4.N) (h0 : ¬t.val % 8 = 0) (h1 : t.val % 8 = 7) (xs0 : Vec F S2048x32 .f32) : Vec F S2048x32 .f32 × Vec F S2048x32 .f32 :=
  (out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) xs0,
   sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) xs0)

-- What the output block and the accumulator hold after the n-th point: a point with k = 0 starts afresh, any other continues from what the point before left.
def outsAt4 (V : (c : Dev nD) → (b : Ref sig .tc) → Buf (Elt F) ((c : Thread nD τ).loc b)) (c : Dev nD) : (n : ℕ) → n < cfg4.N → Vec F S2048x32 .f32 × Vec F S2048x32 .f32
  | 0, hn => pairA4 V c ⟨0, hn⟩ (Nat.zero_mod _) (fun h => by (try dsimp only at h); omega)
  | n + 1, hn =>
    if h0 : (n + 1) % 8 = 0 then
      if h1 : (n + 1) % 8 = 7 then
        False.elim (by omega)
      else
        pairA4 V c ⟨n + 1, hn⟩ h0 h1
    else
      if h1 : (n + 1) % 8 = 7 then
        pairC4 V c ⟨n + 1, hn⟩ h0 h1 (outsAt4 V c n (Nat.lt_of_succ_lt hn)).2
      else
        pairB4 V c ⟨n + 1, hn⟩ h0 h1 (outsAt4 V c n (Nat.lt_of_succ_lt hn)).2

theorem outsAt4_A (c : Dev nD) (t : Fin cfg4.N) (h0 : t.val % 8 = 0) (h1 : ¬t.val % 8 = 7) :
    outsAt4 V c t.val t.isLt = pairA4 V c t h0 h1 := by
  obtain ⟨n, hn⟩ := t
  cases n with
  | zero => exact rfl
  | succ n => exact (dif_pos h0).trans ((dif_neg h1).trans rfl)

theorem outsAt4_B (c : Dev nD) (t : Fin cfg4.N) (h0 : ¬t.val % 8 = 0) (h1 : ¬t.val % 8 = 7) :
    outsAt4 V c t.val t.isLt = pairB4 V c t h0 h1 (outsAt4 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 8 = 0) (h1 : t.val % 8 = 7) :
    outsAt4 V c t.val t.isLt = pairC4 V c t h0 h1 (outsAt4 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

-- Between points the accumulator is owned at exactly what the point before left in it.
def PhiS4 (V : (c : Dev nD) → (b : Ref sig .tc) → Buf (Elt F) ((c : Thread nD τ).loc b)) (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ rest4 (F := F) c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2) ∗ rest4 (F := F) c) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ rest4 (F := F) c) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
  Φ t := PhiS4 V c t.val (Nat.le_of_lt_succ t.isLt)
  q w := q4 w
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl) (fun t => by rw [after4_4]; unfold Dat.blockOf iblk4; rw [A_eq4]; try rfl) t d).trans
    (by unfold Dat.fetched Dat.blockOf iblk4; rw [A_eq4]; try rfl)
theorem before4_5 (c : Dev nD) (t : Fin cfg4.N) (d) : (dat4 V c).before 5 t d = iblk4 V c 5 t :=
  ((dat4 V c).before_in_eq_fetched 5 rfl (fun _ => rfl) (fun _ _ _ => rfl) (fun t => by rw [after4_5]; unfold Dat.blockOf iblk4; rw [A_eq4]; try rfl) t d).trans
    (by unfold Dat.fetched Dat.blockOf iblk4; rw [A_eq4]; try rfl)

theorem leaves4_0 (c : Dev nD) (t : Fin cfg4.N) : (dat4 V c).leavesExact 0 t = owns (c : Thread nD τ) (ms4_0 t) fullShare (iblk4 V c 0 t) := by
  rw [← after4_0]; first | done | (unfold Dat.leavesExact; rw [liveAt4_0 t])
theorem leaves4_1 (c : Dev nD) (t : Fin cfg4.N) : (dat4 V c).leavesExact 1 t = owns (c : Thread nD τ) (ms4_1 t) fullShare (iblk4 V c 1 t) := by
  rw [← after4_1]; first | done | (unfold Dat.leavesExact; rw [liveAt4_1 t])
theorem leaves4_2 (c : Dev nD) (t : Fin cfg4.N) : (dat4 V c).leavesExact 2 t = owns (c : Thread nD τ) (ms4_2 t) fullShare (iblk4 V c 2 t) := by
  rw [← after4_2]; first | done | (unfold Dat.leavesExact; rw [liveAt4_2 t])
theorem leaves4_3 (c : Dev nD) (t : Fin cfg4.N) : (dat4 V c).leavesExact 3 t = owns (c : Thread nD τ) (ms4_3 t) fullShare (iblk4 V c 3 t) := by
  rw [← after4_3]; first | done | (unfold Dat.leavesExact; rw [liveAt4_3 t])
theorem leaves4_4 (c : Dev nD) (t : Fin cfg4.N) : (dat4 V c).leavesExact 4 t = owns (c : Thread nD τ) (ms4_4 t) fullShare (iblk4 V c 4 t) := by
  rw [← after4_4]; first | done | (unfold Dat.leavesExact; rw [liveAt4_4 t])
theorem leaves4_5 (c : Dev nD) (t : Fin cfg4.N) : (dat4 V c).leavesExact 5 t = owns (c : Thread nD τ) (ms4_5 t) fullShare (iblk4 V c 5 t) := by
  rw [← after4_5]; first | done | (unfold Dat.leavesExact; rw [liveAt4_5 t])

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

-- The body takes the invariant before a point to the invariant after it; the position modulo 8 says which of the three runs applies.
set_option maxHeartbeats 8000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4; rw [show @cc4__gcs_kernel F _ = @cc2__gcs_kernel F _ from rfl]
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  rw [leaves4_0, leaves4_1, leaves4_2, leaves4_3, leaves4_4, leaves4_5, PhiS4_castSucc V c t]
  have hN : t.val < 64 := lt_of_lt_of_eq t.isLt (show cfg4.N = 64 from N_4)
  by_cases h0 : t.val % 8 = 0
  · have h1 : ¬t.val % 8 = 7 := by omega
    have hc0 := (hcond4_0 t).mpr h0
    have hc1 : ¬cond4_1 (grid4.coords t) := fun h => h1 ((hcond4_1 t).mp h)
    rw [Dat.leavesExact_idle (dat4 V c) 6 t (idleAt4_6_A t hc0 hc1) (noFlush4_6_A t hc0 hc1), outsAt4_A V c t h0 h1]
    unfold pairA4 sout4_A_0; (try dsimp only)
    by_cases hz : t.val = 0
    on_goal 1 => rw [PhiS4_zero V c _ _ hz, PhiA4_eq]
    on_goal 2 => rw [PhiS4_pos V c _ _ hz]
    all_goals
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_A c (grid4.coords t) _ _ _ _ _ _ _ _ _ _ _ _ _ _ _ _ hc0 hc1 (iblk4 V c 0 t) (iblk4 V c 1 t) (iblk4 V c 2 t) (iblk4 V c 3 t) (iblk4 V c 4 t) (iblk4 V c 5 t)).2.2 _ Set.univ _)
      iframe H0 H1 H2 H3 H4 H5 H6
      isplitl [HS0]; · first | iexact HS0 | (iexists _; iexact HS0)
      iintro ⟨H0, H1, H2, H3, H4, H5, H6, ⟨%es0, HS0⟩⟩
      iframe Hr Hg Ho H0 H1 H2 H3 H4 H5
      isplitl [HS0]
      · unfold owns; iexists _; isplitr
        swap; · iexact HS0
        ipureintro; exact View.read_writes_of_cover _ _ _ _ _ (scover4_A_0 c _ _ _ _ _ _ _ _ _ _ _ _ _ _ _ _ _ _ _ _ _ _ _ _ _)
      iexists _; iexact H6
  · have hc0 : ¬cond4_0 (grid4.coords t) := fun h => h0 ((hcond4_0 t).mp h)
    have hz : t.val ≠ 0 := fun h => h0 (by rw [h])
    rw [PhiS4_pos V c _ _ hz]
    by_cases h1 : t.val % 8 = 7
    · have hc1 := (hcond4_1 t).mpr h1
      rw [show (dat4 V c).leavesExact 6 t = owns (c : Thread nD τ) (ms4_6 t) fullShare ((dat4 V c).after 6 t) from by
        unfold Dat.leavesExact; rw [liveAt4_6_C t hc0 hc1], after4_6, outsAt4_C V c t h0 h1]
      unfold pairC4 out4_C_6 sout4_C_0; (try dsimp only)
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid4.coords t) _ _ _ _ _ _ _ _ _ _ _ _ _ _ _ _ hc0 hc1 (iblk4 V c 0 t) (iblk4 V c 1 t) (iblk4 V c 2 t) (iblk4 V c 3 t) (iblk4 V c 4 t) (iblk4 V c 5 t) _).2.2 Set.univ _)
      iframe H0 H1 H2 H3 H4 H5 HS0
      isplitl [H6]; · iexists _; iexact H6
      iintro ⟨H0, H1, H2, H3, H4, H5, ⟨%e6, H6⟩, ⟨%es0, HS0⟩⟩
      iframe Hr Hg Ho H0 H1 H2 H3 H4 H5
      isplitl [HS0]
      · unfold owns; iexists _; isplitr
        swap; · iexact HS0
        ipureintro; exact View.read_writes_of_cover _ _ _ _ _ (scover4_C_0 c _ _ _ _ _ _ _ _ _ _ _ _ _ _ _ _ _ _ _ _ _ _ _ _ _ _)
      unfold owns; iexists _; isplitr
      swap; · iexact H6
      ipureintro; exact View.read_writes_of_cover _ _ _ _ _ (cover4_C_6 c _ _ _ _ _ _ _ _ _ _ _ _ _ _ _ _ _ _ _ _ _ _ _ _ _ _)
    · have hc1 : ¬cond4_1 (grid4.coords t) := fun h => h1 ((hcond4_1 t).mp h)
      rw [Dat.leavesExact_idle (dat4 V c) 6 t (idleAt4_6_B t hc0 hc1) (noFlush4_6_B t hc0 hc1), outsAt4_B V c t h0 h1]
      unfold pairB4 sout4_B_0; (try dsimp only)
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid4.coords t) _ _ _ _ _ _ _ _ _ _ _ _ _ _ _ _ hc0 hc1 (iblk4 V c 0 t) (iblk4 V c 1 t) (iblk4 V c 2 t) (iblk4 V c 3 t) (iblk4 V c 4 t) (iblk4 V c 5 t) _).2.2 _ Set.univ _)
      iframe H0 H1 H2 H3 H4 H5 H6 HS0
      iintro ⟨H0, H1, H2, H3, H4, H5, H6, ⟨%es0, HS0⟩⟩
      iframe Hr Hg Ho H0 H1 H2 H3 H4 H5
      isplitl [HS0]
      · unfold owns; iexists _; isplitr
        swap; · iexact HS0
        ipureintro; exact View.read_writes_of_cover _ _ _ _ _ (scover4_B_0 c _ _ _ _ _ _ _ _ _ _ _ _ _ _ _ _ _ _ _ _ _ _ _ _ _ _)
      iexists _; iexact H6

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

theorem hout4 (c : Dev nD) : (dat4 V c).Φ (Fin.last cfg4.N) ⊢ Pipeline.ΦA spec4 c :=
  Phi_out4 V c _ (by rw [Fin.val_last]; have : cfg4.N = 64 := N_4; omega)

end Cert.Kernel.Hand

end
-- ==== Proof.K.Run.lean ====
import proofs.«115539_j71236327571877_1_alg».proof.Proof.K.Cast
import proofs.«115539_j71236327571877_1_alg».proof.Proof.K.Gcs1
import proofs.«115539_j71236327571877_1_alg».proof.Proof.K.Gcs2
import proofs.«115539_j71236327571877_1_alg».proof.Proof.K.Gcs3
import proofs.«115539_j71236327571877_1_alg».proof.Proof.K.Gcs4
import proofs.«115539_j71236327571877_1_alg».proof.Proof.Gen.Kernel.Regions

import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev rd (W : Dev nD → Valuation τ sig (Elt F)) : (c : Dev nD) → (b : Ref sig .tc) → Buf (Elt F) ((c : Thread nD τ).loc b) :=
  fun c b => W c b
abbrev V0 := rd (W0 m ρ)

def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N :=
  Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) :=
  Pipeline.withArrays_of_ne spec0 c _ _ b hb

abbrev W2 : Dev nD → Valuation τ sig (Elt F) := fun c => StableHlo.after hostOps1 (W1 m ρ c)
abbrev V2 := rd (W2 m ρ)

def W3 (c : Dev nD) : Valuation τ sig (Elt F) :=
  Function.update (W2 m ρ c) (Proc.devRef .tc main_v2) ((dat1 (V2 m ρ) c).arrAt 6 cfg1.N)
theorem W3_out (c : Dev nD) : W3 m ρ c (Proc.devRef .tc main_v2) = (dat1 (V2 m ρ) c).arrAt 6 cfg1.N :=
  Function.update_self ..
theorem W3_of_ne (c : Dev nD) (b : Ref sig .tc) (hb : b ≠ main_v2) :
    W3 m ρ c (Proc.devRef .tc b) = W2 m ρ c (Proc.devRef .tc b) :=
  Function.update_of_ne (StableHlo.devRef_ne_of_ne hb) _ _

abbrev W4 : Dev nD → Valuation τ sig (Elt F) := fun c => StableHlo.after hostOps2 (W3 m ρ c)
abbrev V4 := rd (W4 m ρ)

def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N :=
  Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) :=
  Pipeline.withArrays_of_ne spec2 c _ _ b hb

abbrev W6 : Dev nD → Valuation τ sig (Elt F) := fun c => StableHlo.after hostOps3 (W5 m ρ c)
abbrev V6 := rd (W6 m ρ)

def W7 (c : Dev nD) : Valuation τ sig (Elt F) :=
  Function.update (W6 m ρ c) (Proc.devRef .tc main_v6) ((dat3 (V6 m ρ) c).arrAt 6 cfg3.N)
theorem W7_out (c : Dev nD) : W7 m ρ c (Proc.devRef .tc main_v6) = (dat3 (V6 m ρ) c).arrAt 6 cfg3.N :=
  Function.update_self ..
theorem W7_of_ne (c : Dev nD) (b : Ref sig .tc) (hb : b ≠ main_v6) :
    W7 m ρ c (Proc.devRef .tc b) = W6 m ρ c (Proc.devRef .tc b) :=
  Function.update_of_ne (StableHlo.devRef_ne_of_ne hb) _ _

abbrev W8 : Dev nD → Valuation τ sig (Elt F) := fun c => StableHlo.after hostOps4 (W7 m ρ c)
abbrev V8 := rd (W8 m ρ)

def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N :=
  Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) :=
  Pipeline.withArrays_of_ne spec4 c _ _ b hb

abbrev W10 : Dev nD → Valuation τ sig (Elt F) := fun c => StableHlo.after hostOps5 (W9 m ρ c)

/-- Either no array is `b`, or one is and it ends as it began. -/
theorem keep {gr W : ℕ} {win : Fin W → Pipeline.WinSpec sig gr} (hinj : Function.Injective (Pipeline.arrRef win)) (c : Dev nD)
    (V : Valuation τ sig (Elt F)) (A : (w : Fin W) → Buf (Elt F) ((win w).arr.view.loc (c : Thread nD τ))) {b : Ref sig .tc}
    (h : ∀ w, Pipeline.arrRef win w = b → A w = V (Proc.devRef .tc (Pipeline.arrRef win w))) :
    Pipeline.withArrays win c V A (Proc.devRef .tc b) = V (Proc.devRef .tc b) := by
  by_cases hb : ∀ w, Pipeline.arrRef win w ≠ b
  · exact Pipeline.withArrays_of_ne win c V A b hb
  · obtain ⟨w, hw⟩ := not_forall.mp hb
    obtain rfl := not_not.mp hw
    exact (Pipeline.withArrays_arr win hinj c V A w).trans (h w rfl)

theorem W1_keep (c : Dev nD) {b : Ref sig .tc} (hb : b ≠ main_v0) : W1 m ρ c (Proc.devRef .tc b) = W0 m ρ c (Proc.devRef .tc b) :=
  keep launch0.win.arr_inj c _ _ fun w e => ((dat0 (V0 m ρ) c).arrAt_in w
    ((by decide : ∀ w : Fin cfg0.W, Pipeline.arrRef spec0 w ≠ main_v0 → (cfg0.win w).isOut = false) w (e ▸ hb)) _).trans (A_eq0 (V0 m ρ) c w)
theorem W5_keep (c : Dev nD) {b : Ref sig .tc} (hb : b ≠ main_v4) : W5 m ρ c (Proc.devRef .tc b) = W4 m ρ c (Proc.devRef .tc b) :=
  keep launch2.win.arr_inj c _ _ fun w e => ((dat2 (V4 m ρ) c).arrAt_in w
    ((by decide : ∀ w : Fin cfg2.W, Pipeline.arrRef spec2 w ≠ main_v4 → (cfg2.win w).isOut = false) w (e ▸ hb)) _).trans (A_eq2 (V4 m ρ) c w)
theorem W9_keep (c : Dev nD) {b : Ref sig .tc} (hb : b ≠ main_v8) : W9 m ρ c (Proc.devRef .tc b) = W8 m ρ c (Proc.devRef .tc b) :=
  keep launch4.win.arr_inj c _ _ fun w e => ((dat4 (V8 m ρ) c).arrAt_in w
    ((by decide : ∀ w : Fin cfg4.W, Pipeline.arrRef spec4 w ≠ main_v8 → (cfg4.win w).isOut = false) w (e ▸ hb)) _).trans (A_eq4 (V8 m ρ) c w)

abbrev args : List (Ref sig .tc) :=
  [main_arg0, main_arg1, main_arg2, main_arg3, main_arg4, main_arg5, main_arg6, main_arg7, main_arg8, main_arg9, main_arg10, main_arg11, main_arg12, main_arg13]

def Wn : ℕ → Dev nD → Valuation τ sig (Elt F)
  | 0 => W0 m ρ | 1 => W1 m ρ | 2 => W2 m ρ | 3 => W3 m ρ | 4 => W4 m ρ | 5 => W5 m ρ
  | 6 => W6 m ρ | 7 => W7 m ρ | 8 => W8 m ρ | 9 => W9 m ρ | _ => W10 m ρ
/-- What step `k` of the fold may change. -/
def wr : ℕ → List (Ref sig .tc)
  | 0 => [main_v0] | 1 => hostOps1_W | 2 => [main_v2] | 3 => hostOps2_W | 4 => [main_v4] | 5 => hostOps3_W
  | 6 => [main_v6] | 7 => hostOps4_W | 8 => [main_v8] | 9 => hostOps5_W | _ => []

theorem step_keep (c : Dev nD) {b : Ref sig .tc} :
    ∀ k, b ∉ wr k → Wn m ρ (k + 1) c (Proc.devRef .tc b) = Wn m ρ k c (Proc.devRef .tc b)
  | 0, h => W1_keep m ρ c (List.ne_of_not_mem_cons h)
  | 1, h => StableHlo.after_of_writes_sub hostOps1 _ hostOps1_writes h
  | 2, h => W3_of_ne m ρ c b (List.ne_of_not_mem_cons h)
  | 3, h => StableHlo.after_of_writes_sub hostOps2 _ hostOps2_writes h
  | 4, h => W5_keep m ρ c (List.ne_of_not_mem_cons h)
  | 5, h => StableHlo.after_of_writes_sub hostOps3 _ hostOps3_writes h
  | 6, h => W7_of_ne m ρ c b (List.ne_of_not_mem_cons h)
  | 7, h => StableHlo.after_of_writes_sub hostOps4 _ hostOps4_writes h
  | 8, h => W9_keep m ρ c (List.ne_of_not_mem_cons h)
  | 9, h => StableHlo.after_of_writes_sub hostOps5 _ hostOps5_writes h
  | _ + 10, _ => rfl

/-- A buffer none of steps `i` … `i + d - 1` may change is after them as before them. -/
theorem kept (c : Dev nD) {b : Ref sig .tc} (i d : ℕ) (h : ∀ k < d, b ∉ wr (i + k) := by decide) :
    Wn m ρ (i + d) c (Proc.devRef .tc b) = Wn m ρ i c (Proc.devRef .tc b) := by
  induction d with
  | zero => rfl
  | succ d ih => exact (step_keep m ρ c (i + d) (h d d.lt_succ_self)).trans (ih fun k hk => h k (Nat.lt_succ_of_lt hk))

theorem W10_arg (c : Dev nD) {b : Ref sig .tc} (hb : b ∈ args) : W10 m ρ c (Proc.devRef .tc b) = m ((c : Thread nD τ).loc b) :=
  kept m ρ c 0 10 ((by decide : ∀ b ∈ args, ∀ k < 10, b ∉ wr (0 + k)) b hb)

def pdats : (p : Fin 5) → (c : Dev nD) → Dat τ (Elt F) Unit ℕ (UR sig nD τ) ℕ (Pipeline.pin (pcfgs (F := F)) adm p) c
  | ⟨0, _⟩ => dat0 (V0 m ρ)
  | ⟨1, _⟩ => dat1 (V2 m ρ)
  | ⟨2, _⟩ => dat2 (V4 m ρ)
  | ⟨3, _⟩ => dat3 (V6 m ρ)
  | ⟨4, _⟩ => dat4 (V8 m ρ)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev ucHeld (c : Dev nD) (W : Valuation τ sig (Elt F)) : sProp 𝕄 := StableHlo.held (c : Thread nD τ) (Pipeline.ucRefs τ sig) W
abbrev ucRest (p : Fin 5) (c : Dev nD) (W : Dev nD → Valuation τ sig (Elt F)) : sProp 𝕄 :=
  Pipeline.unscopedRest (Ix := Unit) (Name := ℕ) (U := UR sig nD τ) (Lvl := ℕ) (cfgs p).spec c (rd W c)
/-- The region's arrays before and after, the rest unchanged: the contents go from `W` to `W'`. -/
abbrev InOut (p : Fin 5) (c : Dev nD) (W W' : Dev nD → Valuation τ sig (Elt F)) : Prop :=
  (ucHeld c (W c) ⊢ iprop((pdats m ρ p c).arrays ((pdats m ρ p c).arrAt · 0) ∗ ucRest p c W))
    ∧ (iprop((pdats m ρ p c).arrays ((pdats m ρ p c).arrAt · (cfgs p).N) ∗ ucRest p c W) ⊢ ucHeld c (W' c))

/-- Distinct arrays: `W'` is `W` with the arrays at their final contents. -/
theorem inj_io {p : Fin 5} (lf : Pipeline.LaunchFacts (nD := nD) (τ := τ) cfgs p) (c : Dev nD)
    (hs : ∀ w, (pdats m ρ p c).share w = fullShare) (W W' : Dev nD → Valuation τ sig (Elt F))
    (hA : ∀ w, (pdats m ρ p c).A w = rd W c (Pipeline.arrRef (cfgs p).spec w))
    (hF : ∀ w, (pdats m ρ p c).arrAt w (cfgs p).N = rd W' c (Pipeline.arrRef (cfgs p).spec w))
    (hr : ∀ b, (∀ w, Pipeline.arrRef (cfgs p).spec w ≠ b) → rd W' c b = rd W c b) : InOut m ρ p c W W' :=
  ⟨(Entails.of_eq (Pipeline.unscopedBufs_held c (W c)).symm).trans
      (Pipeline.arrays_of_unscopedBufs (p := p) (pcfgs (F := F)) adm (pdats m ρ) lf.win lf.arr_whole c hs (rd W c) hA),
    (Pipeline.unscopedBufs_of_arrays (p := p) (pcfgs (F := F)) adm (Ix := Unit) (Name := ℕ) (U := UR sig nD τ) (Lvl := ℕ) lf.win lf.arr_whole c (pdats m ρ) hs (rd W c) (rd W' c) _ hF
      fun b hb => hr b fun w e => hb (Finset.mem_image.mpr ⟨w, Finset.mem_univ _, e⟩)).trans
      (Entails.of_eq (Pipeline.unscopedBufs_held c (W' c)))⟩

/-- Arrays that may coincide, given how they make up the buffers behind them. -/
theorem shared_io (p : Fin 5) (hu : ∀ w, (Pipeline.arrRef (cfgs p).spec w).isScoped = false) (c : Dev nD)
    (har : ∀ V : (b : Ref sig .tc) → Buf (Elt F) ((c : Thread nD τ).loc b),
      (pdats m ρ p c).arrays (fun w => V (Pipeline.arrRef (cfgs p).spec w)) = (Pipeline.arrBufs (Ix := Unit) (Name := ℕ) (U := UR sig nD τ) (Lvl := ℕ) (cfgs p).spec c V : sProp 𝕄))
    (W W' : Dev nD → Valuation τ sig (Elt F))
    (hA : ∀ w, (pdats m ρ p c).arrAt w 0 = rd W c (Pipeline.arrRef (cfgs p).spec w))
    (hF : ∀ w, (pdats m ρ p c).arrAt w (cfgs p).N = rd W' c (Pipeline.arrRef (cfgs p).spec w))
    (hr : ∀ b, b ∉ Finset.univ.image (Pipeline.arrRef (cfgs p).spec) → rd W' c b = rd W c b) : InOut m ρ p c W W' := by
  have e := fun V : Valuation τ sig (Elt F) => (Pipeline.unscopedBufs_held (Ix := Unit) (Name := ℕ) (U := UR sig nD τ) (Lvl := ℕ) c V).symm.trans
    (Pipeline.unscopedBufs_split₀ (Ix := Unit) (Name := ℕ) (U := UR sig nD τ) (Lvl := ℕ) cfgs p hu c fun b => V b)
  unfold InOut ucHeld
  rw [e, e, show ((pdats m ρ p c).arrAt · 0) = _ from funext hA, show ((pdats m ρ p c).arrAt · (cfgs p).N) = _ from funext hF, har (rd W c), har (rd W' c)]
  refine ⟨.rfl, sep_mono .rfl (Entails.of_eq ?_)⟩
  unfold ucRest Pipeline.unscopedRest
  exact bigSep_congr fun b hb => by rw [← hr b (Finset.mem_sdiff.mp hb).2]

/-- One conjunct of a chain split in two. -/
theorem sep7 {P0 P1 P2 P3 P4 P5 P6 Q : sProp 𝕄} (h : Q ⊣⊢ iprop(P1 ∗ P2)) :
    iprop(P0 ∗ P1 ∗ P2 ∗ P3 ∗ P4 ∗ P5 ∗ P6) = iprop(P0 ∗ Q ∗ P3 ∗ P4 ∗ P5 ∗ P6) := by
  rw [Entails.antisymm h.1 h.2]
  exact congrArg (BIBase.sep P0) (Entails.antisymm BI.sep_assoc' BI.sep_assoc)

/-- Windows 1 and 2 have the same array. -/
theorem arrays1 (c : Dev nD) (V') (V : (b : Ref sig .tc) → Buf (Elt F) ((c : Thread nD τ).loc b)) :
    (dat1 (F := F) V' c).arrays (fun w => V (Pipeline.arrRef spec1 w)) = (Pipeline.arrBufs (Ix := Unit) (Name := ℕ) (U := UR sig nD τ) (Lvl := ℕ) spec1 c V : sProp 𝕄) := by
  unfold Dat.arrays Pipeline.arrBufs
  rw [bigSep_W1, bigSep_eq_bigSepL_of_eq [main_v0, main_arg0, main_arg2, main_arg3, main_v1, main_v2] (by decide) (by decide),
    (arr_whole1 0).set_eq_univ, (arr_whole1 1).set_eq_univ, (arr_whole1 3).set_eq_univ, (arr_whole1 4).set_eq_univ,
    (arr_whole1 5).set_eq_univ, (arr_whole1 6).set_eq_univ]
  exact sep7 (pointsTo_share (PosShare.mem_left_op_right fullShare))
theorem arrays3 (c : Dev nD) (V') (V : (b : Ref sig .tc) → Buf (Elt F) ((c : Thread nD τ).loc b)) :
    (dat3 (F := F) V' c).arrays (fun w => V (Pipeline.arrRef spec3 w)) = (Pipeline.arrBufs (Ix := Unit) (Name := ℕ) (U := UR sig nD τ) (Lvl := ℕ) spec3 c V : sProp 𝕄) := by
  unfold Dat.arrays Pipeline.arrBufs
  rw [bigSep_W3, bigSep_eq_bigSepL_of_eq [main_v0, main_arg0, main_arg8, main_arg9, main_v5, main_v6] (by decide) (by decide),
    (arr_whole3 0).set_eq_univ, (arr_whole3 1).set_eq_univ, (arr_whole3 3).set_eq_univ, (arr_whole3 4).set_eq_univ,
    (arr_whole3 5).set_eq_univ, (arr_whole3 6).set_eq_univ]
  exact sep7 (pointsTo_share (PosShare.mem_left_op_right fullShare))

theorem hF1 (c : Dev nD) (w : Fin cfg1.W) : (dat1 (V2 m ρ) c).arrAt w cfg1.N = W3 m ρ c (Proc.devRef .tc (Pipeline.arrRef spec1 w)) := by
  by_cases h : Pipeline.arrRef spec1 w = main_v2
  · obtain rfl := (by decide : ∀ w : Fin cfg1.W, Pipeline.arrRef spec1 w = main_v2 → w = 6) w h
    exact (W3_out m ρ c).symm
  · exact ((dat1 (V2 m ρ) c).arrAt_in w ((by decide : ∀ w : Fin cfg1.W, Pipeline.arrRef spec1 w ≠ main_v2 → (cfg1.win w).isOut = false) w h) _).trans
      ((A_eq1 (V2 m ρ) c w).trans (W3_of_ne m ρ c _ h).symm)
theorem hF3 (c : Dev nD) (w : Fin cfg3.W) : (dat3 (V6 m ρ) c).arrAt w cfg3.N = W7 m ρ c (Proc.devRef .tc (Pipeline.arrRef spec3 w)) := by
  by_cases h : Pipeline.arrRef spec3 w = main_v6
  · obtain rfl := (by decide : ∀ w : Fin cfg3.W, Pipeline.arrRef spec3 w = main_v6 → w = 6) w h
    exact (W7_out m ρ c).symm
  · exact ((dat3 (V6 m ρ) c).arrAt_in w ((by decide : ∀ w : Fin cfg3.W, Pipeline.arrRef spec3 w ≠ main_v6 → (cfg3.win w).isOut = false) w h) _).trans
      ((A_eq3 (V6 m ρ) c w).trans (W7_of_ne m ρ c _ h).symm)

set_option backward.isDefEq.respectTransparency.types false in
/-- A region taking the contents `W` to `W'`. -/
def reg (p : Fin 5) (win : Pipeline.WinFacts₀ (cfgs p).spec) (bp : ∀ w : Fin (cfgs p).W, 0 < ((cfgs p).spec w).block.numel)
    (sw : ∀ (w : Fin (cfgs p).W) (s : Fin ((cfgs p).spec w).nbuf), (((cfgs p).spec w).stage s).IsWhole)
    (hb : ∀ c, BodyObligation (pdats m ρ p c) (defs₀ (F := F)) 𝒱₀ () Set.univ)
    (ow : ∀ c t, (pdats m ρ p c).owed t = 0) (rc : ∀ c, (pdats m ρ p c).recorded 0 = Set.univ)
    (hi : ∀ c, Pipeline.ΦA (cfgs p).spec c ⊢ (pdats m ρ p c).Φ 0)
    (ho : ∀ c, (pdats m ρ p c).Φ (Fin.last (cfgs p).N) ⊢ Pipeline.ΦA (cfgs p).spec c)
    (W W' : Dev nD → Valuation τ sig (Elt F)) (io : ∀ c, InOut m ρ p c W W') :
    Pipeline.RegionSeg (pcfgs (F := F)) adm (pdats m ρ) () defs₀ 𝒱₀ L lv p where
  win := win
  block_pos := bp
  stage_whole := sw
  K := PEmpty
  osem k := k.elim
  ho := Pipeline.OwnSemFacts.none _
  hbody c := (hb c).loose
  hwaits := Pipeline.hwaits_of_owed_zero _ _ _ _ L lv p ow
  pre c := iprop(ucHeld c (W c) ∗ R c)
  post c := iprop(ucHeld c (W' c) ∗ R c)
  X c := iprop(∃ r, prngReg c r)
  Y c := iprop(∃ r, prngReg c r)
  Z c := ucRest p c W
  hentry c := by
    unfold Pipeline.Dat.owesAt Pipeline.owesWithin Pipeline.Dat.bound Pipeline.prefHeld
    rw [Pipeline.ownSems0_none, ow, rc, show (Finset.univ : Finset (Fin 0)) = ∅ from rfl, BI.bigSep_empty]
    iintro ⟨⟨Hub, Hp, HO⟩, -, -⟩
    ihave H := (io c).1 $$ Hub
    icases H with ⟨Ha, Hrest⟩
    icases HO with ⟨%W, HO⟩
    imodintro
    iframe Ha Hp Hrest
    isplitr; · iempintro
    iexists W; isplitr; · ipureintro; exact fun _ _ => Or.inl trivial
    iexact HO
  hin c := by
    refine BIBase.Entails.trans ?_ (hi c)
    unfold Pipeline.ΦA
    iintro ⟨Hp, -, Hr⟩
    iframe Hr Hp
  hout c := by
    rw [Pipeline.ownSems0_none]
    refine (ho c).trans ?_
    unfold Pipeline.ΦA
    iintro ⟨Hr, Hp⟩
    iframe Hr Hp
    iempintro
  hexit c := by
    unfold Pipeline.Dat.owesAt Pipeline.owesWithin
    rw [ow]
    iintro ⟨Ha, HO, HY, Hrest⟩
    imodintro
    isplitl [Ha Hrest]
    · iapply (io c).2; iframe Ha Hrest
    isplitl [HY]; · iexact HY
    icases HO with ⟨%W, -, HO⟩; iexists W; iexact HO

abbrev reg0 := reg m ρ 0 launch0.win.to₀ launch0.block_pos launch0.stage_whole (body_obligation0 (V0 m ρ)) (fun _ _ => rfl) (fun _ => rfl)
  (fun _ => .rfl) (fun _ => .rfl) (W0 m ρ) (W1 m ρ) fun c => inj_io m ρ launch0 c ((pdats m ρ 0 c).share_full fun _ => rfl) _ _
    (fun _ => rfl) (fun w => (W1_arr m ρ c w).symm) (W1_of_ne m ρ c)
abbrev reg1 := reg m ρ 1 winFacts₀1 block_pos1 stage_whole1 (body_obligation1 (V2 m ρ)) (fun _ _ => rfl) (fun _ => rfl)
  (hin1 (V2 m ρ)) (hout1 (V2 m ρ)) (W2 m ρ) (W3 m ρ) fun c => shared_io m ρ 1 winFacts₀1.arr_unscoped c (arrays1 c _) _ _
    (fun _ => rfl) (hF1 m ρ c) fun b hb => W3_of_ne m ρ c b fun e => hb (Finset.mem_image.mpr ⟨6, Finset.mem_univ _, e.symm⟩)
abbrev reg2 := reg m ρ 2 launch2.win.to₀ launch2.block_pos launch2.stage_whole (body_obligation2 (V4 m ρ)) (fun _ _ => rfl) (fun _ => rfl)
  (hin2 (V4 m ρ)) (hout2 (V4 m ρ)) (W4 m ρ) (W5 m ρ) fun c => inj_io m ρ launch2 c ((pdats m ρ 2 c).share_full fun _ => rfl) _ _
    (fun _ => rfl) (fun w => (W5_arr m ρ c w).symm) (W5_of_ne m ρ c)
abbrev reg3 := reg m ρ 3 winFacts₀3 block_pos3 stage_whole3 (body_obligation3 (V6 m ρ)) (fun _ _ => rfl) (fun _ => rfl)
  (hin3 (V6 m ρ)) (hout3 (V6 m ρ)) (W6 m ρ) (W7 m ρ) fun c => shared_io m ρ 3 winFacts₀3.arr_unscoped c (arrays3 c _) _ _
    (fun _ => rfl) (hF3 m ρ c) fun b hb => W7_of_ne m ρ c b fun e => hb (Finset.mem_image.mpr ⟨6, Finset.mem_univ _, e.symm⟩)
abbrev reg4 := reg m ρ 4 launch4.win.to₀ launch4.block_pos launch4.stage_whole (body_obligation4 (V8 m ρ)) (fun _ _ => rfl) (fun _ => rfl)
  (hin4 (V8 m ρ)) (hout4 (V8 m ρ)) (W8 m ρ) (W9 m ρ) fun c => inj_io m ρ launch4 c ((pdats m ρ 4 c).share_full fun _ => rfl) _ _
    (fun _ => rfl) (fun w => (W9_arr m ρ c w).symm) (W9_of_ne m ρ c)

abbrev segs : List (Pipeline.Seg (pcfgs (F := F)) adm (pdats m ρ) () defs₀ 𝒱₀ L lv) :=
  [ .region (reg0 m ρ), .host (hseg hostOps1 hostOps1_sub hostOps1_fresh (W1 m ρ)),
    .region (reg1 m ρ), .host (hseg hostOps2 hostOps2_sub hostOps2_fresh (W3 m ρ)),
    .region (reg2 m ρ), .host (hseg hostOps3 hostOps3_sub hostOps3_fresh (W5 m ρ)),
    .region (reg3 m ρ), .host (hseg hostOps4 hostOps4_sub hostOps4_fresh (W7 m ρ)),
    .region (reg4 m ρ), .host (hseg hostOps5 hostOps5_sub hostOps5_fresh (W9 m ρ)) ]
theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem ((c : Thread nD τ).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(ucHeld c (W0 m ρ c) ∗ R c)) (Tₙ := fun c => iprop(ucHeld c (W10 m ρ c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => BI.sep_assoc'⟩)
    (hinit := by
      refine Pipeline.initEach L lv fun c => ?_
      rw [show unscopedBufs c (fun b => m ((c : Thread nD τ).loc b)) = ucHeld c (W0 m ρ c) from Pipeline.unscopedBufs_held c (W0 m ρ c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold ucHeld StableHlo.held
      imodintro
      iapply (pointsTo_read_all (Pipeline.ucRefs τ sig) (fun b => (((c : Thread nD τ)).1, b)) (W10 m ρ c) s')
      isplitl [Hh] <;> iassumption)
    (hQ := fun s h => h)

theorem arg_read {r : PUnit × MemSt nD τ sig (Elt F)}
    (h : ∀ c : Dev nD, ∀ b ∈ Pipeline.ucRefs τ sig, r.2.mem ((c : Thread nD τ).1, b) = W10 m ρ c b) (c : Dev nD) {b : Ref sig .tc}
    (hb : b ∈ args) : r.2.mem ((c.tc : Thread nD τ).loc b) = m ((c.tc : Thread nD τ).loc b) :=
  (h c _ (mem_uc b ((by decide : ∀ b ∈ args, ¬ (Proc.devRef .tc b : DevRef τ sig).isScoped) b hb))).trans (W10_arg m ρ c hb)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    have g {b : Ref sig .tc} := arg_read m ρ h c (b := b)
    ⟨g (by decide), g (by decide), g (by decide), g (by decide), g (by decide), g (by decide), g (by decide), g (by decide), g (by decide), g (by decide), g (by decide), g (by decide), g (by decide), g (by decide)⟩) (run_all m ρ)

end Cert.Kernel.Hand

end
-- ==== Proof.KI.Cast.lean ====
import proofs.«115539_j71236327571877_1_alg».proof.Proof.Gen.KernelIdeal.Launch
import proofs.«115539_j71236327571877_1_alg».proof.Proof.Gen.KernelIdeal.Skeleton
import proofs.«115539_j71236327571877_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rc0 : Rect S1024x2048 := Rect.unit (s := S1024x2048) ![0, 0] S1024x2048.size inb_S1024x2048_S1024x2048_0_0

def out0_1 (x0 : Vec F S1024x2048 .f32) : Vec F S1024x2048 .bf16 :=
  View.canon [⟨rc0, k0_pay1 (View.ld x0 rc0)⟩]

theorem cover0_1 (p0 : Vec F S1024x2048 .bf16) (y : S1024x2048.Idx) :
    ∃ pc ∈ ([⟨rc0, p0⟩] : List (View.Piece (Elt F) S1024x2048 .bf16)), y ∈ pc.1.set :=
  View.cover_of_tiled [⟨rc0, p0⟩] S1024x2048.size (by rfl) y

set_option maxHeartbeats 1000000 in

theorem sound_kernel0 (c : Dev nD) (E : Set ℕ) (i : grid0.Coords) (arg0 : Memref sig .tc .vmem S1024x2048 .f32) (harg0 : arg0.IsWhole) (arg1 : Memref sig .tc .vmem S1024x2048 .bf16) (harg1 : arg1.IsWhole)
    (x0 : Vec F S1024x2048 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__cast_kernel i arg0 harg0 arg1 harg1) K := by
  simp only [cc0__cast_kernel_eq_skeleton]; unfold cc0__cast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  iframe HΦ Ho H0 H1

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Gcs1Run.lean ====
import proofs.«115539_j71236327571877_1_alg».proof.Proof.Gen.KernelIdeal.Launch
import proofs.«115539_j71236327571877_1_alg».proof.Proof.Gen.KernelIdeal.Skeleton
import proofs.«115539_j71236327571877_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev run1_c0 (i : grid1.Coords) : Prop := (Scalar.cmpi .ne (Scalar.extui (Scalar.cmpi .eq (BitVec.ofNat 32 (i 1).val) 0#32)) 0#32) = 1#1

abbrev run1_c1 (i : grid1.Coords) : Prop := k1_cond2 i = 1#1

section body
variable (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x64 .f32) (harg4 : arg4.IsWhole) (arg5 : Memref sig .tc .vmem S64x32 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole)

section A
variable (hc0 : run1_c0 i) (hc1 : ¬run1_c1 i) (x0 : Vec F S2048x2048 .bf16) (x1 : Vec F S2048x64 .f32) (x2 : Vec F S2048x64 .f32) (x3 : Vec F S64x32 .f32) (x4 : Vec F S64x32 .f32) (x5 : Vec F S1x32 .f32)

-- k = 0: the accumulator is overwritten with zero and then with zero plus the first column block's product; the output block is not written.
set_option maxHeartbeats 4000000 in
noncomputable def kernelRun1_A :
    Σ' (L6 : List (View.Piece (Elt F) S2048x32 .f32)), { LS0 : List (View.Piece (Elt F) S2048x32 .f32) //
      ∀ (xi6 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__gcs_kernel i arg2 harg2 arg3 harg3 arg4 harg4 arg5 harg5 arg6 harg6 arg7 harg7 arg8 harg8 arg9 harg9) K } := by
  refine ⟨[], ?_, fun xi6 E K => ?run⟩
  case run =>
    simp only [cc1__gcs_kernel_eq_skeleton]; unfold cc1__gcs_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end A

section B
variable (hc0 : ¬run1_c0 i) (hc1 : ¬run1_c1 i) (x0 : Vec F S2048x2048 .bf16) (x1 : Vec F S2048x64 .f32) (x2 : Vec F S2048x64 .f32) (x3 : Vec F S64x32 .f32) (x4 : Vec F S64x32 .f32) (x5 : Vec F S1x32 .f32) (xs0 : Vec F S2048x32 .f32)

-- 0 < k < 7: the accumulator gains this column block's product; the output block is not written.
set_option maxHeartbeats 4000000 in
noncomputable def kernelRun1_B :
    Σ' (L6 : List (View.Piece (Elt F) S2048x32 .f32)), { LS0 : List (View.Piece (Elt F) S2048x32 .f32) //
      ∀ (xi6 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__gcs_kernel i arg2 harg2 arg3 harg3 arg4 harg4 arg5 harg5 arg6 harg6 arg7 harg7 arg8 harg8 arg9 harg9) K } := by
  refine ⟨[], ?_, fun xi6 E K => ?run⟩
  case run =>
    simp only [cc1__gcs_kernel_eq_skeleton]; unfold cc1__gcs_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end B

section C
variable (hc0 : ¬run1_c0 i) (hc1 : run1_c1 i) (x0 : Vec F S2048x2048 .bf16) (x1 : Vec F S2048x64 .f32) (x2 : Vec F S2048x64 .f32) (x3 : Vec F S64x32 .f32) (x4 : Vec F S64x32 .f32) (x5 : Vec F S1x32 .f32) (xs0 : Vec F S2048x32 .f32)

-- k = 7: the accumulator gains the last product, and the row block max(accumulator + X W2 + b, 0) is written.
set_option maxHeartbeats 4000000 in
noncomputable def kernelRun1_C :
    Σ' (L6 : List (View.Piece (Elt F) S2048x32 .f32)), { LS0 : List (View.Piece (Elt F) S2048x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__gcs_kernel i arg2 harg2 arg3 harg3 arg4 harg4 arg5 harg5 arg6 harg6 arg7 harg7 arg8 harg8 arg9 harg9) K } := by
  refine ⟨?_, ?_, fun E K => ?run⟩
  case run =>
    simp only [cc1__gcs_kernel_eq_skeleton]; unfold cc1__gcs_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end C

end body

end Cert.KernelIdeal.Hand

end
-- ==== Proof.KI.Gcs1.lean ====
import proofs.«115539_j71236327571877_1_alg».proof.Proof.KI.Gcs1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := run1_c0 i

-- In the linear order of the 64 grid points (k fastest) the column block is the first at every eighth point,
theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := run1_c1 i

-- and the last at every eighth point from the eighth.
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel

theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel

theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel

theorem liveAt1_6_C : ∀ t : Fin cfg1.N, ¬cond1_0 (grid1.coords t) → cond1_1 (grid1.coords t) → cfg1.idle 6 (grid1.coords t) = false := by decide +kernel

abbrev VO1_6 : View sig .tc .vmem S2048x32 .f32 := (Memref.whole cc1_stg6_0 : Memref sig .tc .vmem S2048x32 .f32).view

abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x32 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x32 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x32 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2048x32 .f32 := win1_6.stage (cfg1.slots t 6)
abbrev hs1_6 (t : Fin cfg1.N) : (ms1_6 t).IsWhole := hstage1_6 ((cfg1.slots t 6).cast nbuf1_6)

abbrev scM1_0 : Memref sig .tc .vmem S2048x32 .f32 := Memref.whole cc1_scratch0

abbrev VS1_0 : View sig .tc .vmem S2048x32 .f32 := scM1_0.view

theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

section body
variable (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x64 .f32) (harg4 : arg4.IsWhole) (arg5 : Memref sig .tc .vmem S64x32 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole)

section A
variable (hc0 : cond1_0 i) (hc1 : ¬cond1_1 i) (x0 : Vec F S2048x2048 .bf16) (x1 : Vec F S2048x64 .f32) (x2 : Vec F S2048x64 .f32) (x3 : Vec F S64x32 .f32) (x4 : Vec F S64x32 .f32) (x5 : Vec F S1x32 .f32)

def out1_A_6 : Vec F S2048x32 .f32 :=
  VO1_6.read (Elt F) (VO1_6.writes (Elt F) VO1_6.junk (kernelRun1_A c i arg2 harg2 arg3 harg3 arg4 harg4 arg5 harg5 arg6 harg6 arg7 harg7 arg8 harg8 arg9 harg9 hc0 hc1 x0 x1 x2 x3 x4 x5).1)

theorem scover1_A_0 (y : S2048x32.Idx) :
    ∃ pc ∈ (kernelRun1_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).2.1 S2048x32.size (by sl_kernel_rfl) y

def sout1_A_0 : Vec F S2048x32 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4 x5).2.1)

end A

section B
variable (hc0 : ¬cond1_0 i) (hc1 : ¬cond1_1 i) (x0 : Vec F S2048x2048 .bf16) (x1 : Vec F S2048x64 .f32) (x2 : Vec F S2048x64 .f32) (x3 : Vec F S64x32 .f32) (x4 : Vec F S64x32 .f32) (x5 : Vec F S1x32 .f32) (xs0 : Vec F S2048x32 .f32)

def out1_B_6 : Vec F S2048x32 .f32 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x0 x1 x2 x3 x4 x5 xs0).1)

theorem scover1_B_0 (y : S2048x32.Idx) :
    ∃ pc ∈ (kernelRun1_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).2.1 S2048x32.size (by sl_kernel_rfl) y

def sout1_B_0 : Vec F S2048x32 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 x4 x5 xs0).2.1)

end B

section C
variable (hc0 : ¬cond1_0 i) (hc1 : cond1_1 i) (x0 : Vec F S2048x2048 .bf16) (x1 : Vec F S2048x64 .f32) (x2 : Vec F S2048x64 .f32) (x3 : Vec F S64x32 .f32) (x4 : Vec F S64x32 .f32) (x5 : Vec F S1x32 .f32) (xs0 : Vec F S2048x32 .f32)

theorem cover1_C_6 (y : S2048x32.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S2048x32.size (by sl_kernel_rfl) y

def out1_C_6 : Vec F S2048x32 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xs0).1)

theorem scover1_C_0 (y : S2048x32.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S2048x32.size (by sl_kernel_rfl) y

def sout1_C_0 : Vec F S2048x32 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 x5 xs0).2.1)

end C

end body

variable (V : (c : Dev nD) → (b : Ref sig .tc) → Buf (Elt F) ((c : Thread nD τ).loc b))

def q1 : Fin cfg1.W → PosShare TreeShare := fun w => if w = 1 then fullShare.left else if w = 2 then fullShare.right else fullShare

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rest1 (c : Dev nD) : sProp 𝕄 := Pipeline.scopedRestBut (Ix := Unit) (Name := ℕ) (U := UR sig nD τ) (Lvl := ℕ) (Val := Elt F) spec1 c [cc1_scratch0]

def pairA1 (c : Dev nD) (t : Fin cfg1.N) (h0 : t.val % 8 = 0) (h1 : ¬t.val % 8 = 7) : Vec F S2048x32 .f32 × Vec F S2048x32 .f32 :=
  (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))

def pairB1 (c : Dev nD) (t : Fin cfg1.N) (h0 : ¬t.val % 8 = 0) (h1 : ¬t.val % 8 = 7) (xs0 : Vec F S2048x32 .f32) : Vec F S2048x32 .f32 × Vec F S2048x32 .f32 :=
  (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) xs0,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) xs0)

def pairC1 (c : Dev nD) (t : Fin cfg1.N) (h0 : ¬t.val % 8 = 0) (h1 : t.val % 8 = 7) (xs0 : Vec F S2048x32 .f32) : Vec F S2048x32 .f32 × Vec F S2048x32 .f32 :=
  (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) xs0,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) xs0)

-- What the output block and the accumulator hold after the n-th point: a point with k = 0 starts afresh, any other continues from what the point before left.
def outsAt1 (V : (c : Dev nD) → (b : Ref sig .tc) → Buf (Elt F) ((c : Thread nD τ).loc b)) (c : Dev nD) : (n : ℕ) → n < cfg1.N → Vec F S2048x32 .f32 × Vec F S2048x32 .f32
  | 0, hn => pairA1 V c ⟨0, hn⟩ (Nat.zero_mod _) (fun h => by (try dsimp only at h); omega)
  | n + 1, hn =>
    if h0 : (n + 1) % 8 = 0 then
      if h1 : (n + 1) % 8 = 7 then
        False.elim (by omega)
      else
        pairA1 V c ⟨n + 1, hn⟩ h0 h1
    else
      if h1 : (n + 1) % 8 = 7 then
        pairC1 V c ⟨n + 1, hn⟩ h0 h1 (outsAt1 V c n (Nat.lt_of_succ_lt hn)).2
      else
        pairB1 V c ⟨n + 1, hn⟩ h0 h1 (outsAt1 V c n (Nat.lt_of_succ_lt hn)).2

theorem outsAt1_A (c : Dev nD) (t : Fin cfg1.N) (h0 : t.val % 8 = 0) (h1 : ¬t.val % 8 = 7) :
    outsAt1 V c t.val t.isLt = pairA1 V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = pairB1 V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = pairC1 V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

-- Between points the accumulator is owned at exactly what the point before left in it.
def PhiS1 (V : (c : Dev nD) → (b : Ref sig .tc) → Buf (Elt F) ((c : Thread nD τ).loc b)) (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 (F := F) c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q w := q1 w
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

theorem leaves1_0 (c : Dev nD) (t : Fin cfg1.N) : (dat1 V c).leavesExact 0 t = owns (c : Thread nD τ) (ms1_0 t) fullShare (iblk1 V c 0 t) := by
  rw [← after1_0]; first | done | (unfold Dat.leavesExact; rw [liveAt1_0 t])
theorem leaves1_1 (c : Dev nD) (t : Fin cfg1.N) : (dat1 V c).leavesExact 1 t = owns (c : Thread nD τ) (ms1_1 t) fullShare (iblk1 V c 1 t) := by
  rw [← after1_1]; first | done | (unfold Dat.leavesExact; rw [liveAt1_1 t])
theorem leaves1_2 (c : Dev nD) (t : Fin cfg1.N) : (dat1 V c).leavesExact 2 t = owns (c : Thread nD τ) (ms1_2 t) fullShare (iblk1 V c 2 t) := by
  rw [← after1_2]; first | done | (unfold Dat.leavesExact; rw [liveAt1_2 t])
theorem leaves1_3 (c : Dev nD) (t : Fin cfg1.N) : (dat1 V c).leavesExact 3 t = owns (c : Thread nD τ) (ms1_3 t) fullShare (iblk1 V c 3 t) := by
  rw [← after1_3]; first | done | (unfold Dat.leavesExact; rw [liveAt1_3 t])
theorem leaves1_4 (c : Dev nD) (t : Fin cfg1.N) : (dat1 V c).leavesExact 4 t = owns (c : Thread nD τ) (ms1_4 t) fullShare (iblk1 V c 4 t) := by
  rw [← after1_4]; first | done | (unfold Dat.leavesExact; rw [liveAt1_4 t])
theorem leaves1_5 (c : Dev nD) (t : Fin cfg1.N) : (dat1 V c).leavesExact 5 t = owns (c : Thread nD τ) (ms1_5 t) fullShare (iblk1 V c 5 t) := by
  rw [← after1_5]; first | done | (unfold Dat.leavesExact; rw [liveAt1_5 t])

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

-- The body takes the invariant before a point to the invariant after it; the position modulo 8 says which of the three runs applies.
set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5, PhiS1_castSucc V c t]
  have hN : t.val < 64 := lt_of_lt_of_eq t.isLt (show cfg1.N = 64 from N_1)
  by_cases h0 : t.val % 8 = 0
  · have h1 : ¬t.val % 8 = 7 := by omega
    have hc0 := (hcond1_0 t).mpr h0
    have hc1 : ¬cond1_1 (grid1.coords t) := fun h => h1 ((hcond1_1 t).mp h)
    rw [Dat.leavesExact_idle (dat1 V c) 6 t (idleAt1_6_A t hc0 hc1) (noFlush1_6_A t hc0 hc1), outsAt1_A V c t h0 h1]
    unfold pairA1 sout1_A_0; (try dsimp only)
    by_cases hz : t.val = 0
    on_goal 1 => rw [PhiS1_zero V c _ _ hz, PhiA1_eq]
    on_goal 2 => rw [PhiS1_pos V c _ _ hz]
    all_goals
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t)).2.2 _ Set.univ _)
      iframe H0 H1 H2 H3 H4 H5 H6
      isplitl [HS0]; · first | iexact HS0 | (iexists _; iexact HS0)
      iintro ⟨H0, H1, H2, H3, H4, H5, H6, ⟨%es0, HS0⟩⟩
      iframe Hr Hg Ho H0 H1 H2 H3 H4 H5
      isplitl [HS0]
      · unfold owns; iexists _; isplitr
        swap; · iexact HS0
        ipureintro; exact View.read_writes_of_cover _ _ _ _ _ (scover1_A_0 c _ _ _ _ _ _ _ _ _ _ _ _ _ _ _ _ _ _ _ _ _ _ _ _ _)
      iexists _; iexact H6
  · have hc0 : ¬cond1_0 (grid1.coords t) := fun h => h0 ((hcond1_0 t).mp h)
    have hz : t.val ≠ 0 := fun h => h0 (by rw [h])
    rw [PhiS1_pos V c _ _ hz]
    by_cases h1 : t.val % 8 = 7
    · have hc1 := (hcond1_1 t).mpr h1
      rw [show (dat1 V c).leavesExact 6 t = owns (c : Thread nD τ) (ms1_6 t) fullShare ((dat1 V c).after 6 t) from by
        unfold Dat.leavesExact; rw [liveAt1_6_C t hc0 hc1], after1_6, outsAt1_C V c t h0 h1]
      unfold pairC1 out1_C_6 sout1_C_0; (try dsimp only)
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _).2.2 Set.univ _)
      iframe H0 H1 H2 H3 H4 H5 HS0
      isplitl [H6]; · iexists _; iexact H6
      iintro ⟨H0, H1, H2, H3, H4, H5, ⟨%e6, H6⟩, ⟨%es0, HS0⟩⟩
      iframe Hr Hg Ho H0 H1 H2 H3 H4 H5
      isplitl [HS0]
      · unfold owns; iexists _; isplitr
        swap; · iexact HS0
        ipureintro; exact View.read_writes_of_cover _ _ _ _ _ (scover1_C_0 c _ _ _ _ _ _ _ _ _ _ _ _ _ _ _ _ _ _ _ _ _ _ _ _ _ _)
      unfold owns; iexists _; isplitr
      swap; · iexact H6
      ipureintro; exact View.read_writes_of_cover _ _ _ _ _ (cover1_C_6 c _ _ _ _ _ _ _ _ _ _ _ _ _ _ _ _ _ _ _ _ _ _ _ _ _ _)
    · have hc1 : ¬cond1_1 (grid1.coords t) := fun h => h1 ((hcond1_1 t).mp h)
      rw [Dat.leavesExact_idle (dat1 V c) 6 t (idleAt1_6_B t hc0 hc1) (noFlush1_6_B t hc0 hc1), outsAt1_B V c t h0 h1]
      unfold pairB1 sout1_B_0; (try dsimp only)
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _).2.2 _ Set.univ _)
      iframe H0 H1 H2 H3 H4 H5 H6 HS0
      iintro ⟨H0, H1, H2, H3, H4, H5, H6, ⟨%es0, HS0⟩⟩
      iframe Hr Hg Ho H0 H1 H2 H3 H4 H5
      isplitl [HS0]
      · unfold owns; iexists _; isplitr
        swap; · iexact HS0
        ipureintro; exact View.read_writes_of_cover _ _ _ _ _ (scover1_B_0 c _ _ _ _ _ _ _ _ _ _ _ _ _ _ _ _ _ _ _ _ _ _ _ _ _ _)
      iexists _; iexact H6

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.KI.Gcs2Run.lean ====
import proofs.«115539_j71236327571877_1_alg».proof.Proof.Gen.KernelIdeal.Launch
import proofs.«115539_j71236327571877_1_alg».proof.Proof.Gen.KernelIdeal.Skeleton
import proofs.«115539_j71236327571877_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev run2_c0 (i : grid2.Coords) : Prop := (Scalar.cmpi .ne (Scalar.extui (Scalar.cmpi .eq (BitVec.ofNat 32 (i 1).val) 0#32)) 0#32) = 1#1

abbrev run2_c1 (i : grid2.Coords) : Prop := k2_cond2 i = 1#1

section body
variable (c : Dev nD) (i : grid2.Coords) (arg2 : Memref sig .tc .vmem S2048x2048 .bf16) (harg2 : arg2.IsWhole) (arg3 : Memref sig .tc .vmem S2048x32 .f32) (harg3 : arg3.IsWhole) (arg4 : Memref sig .tc .vmem S2048x64 .f32) (harg4 : arg4.IsWhole) (arg5 : Memref sig .tc .vmem S32x32 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole)

section A
variable (hc0 : run2_c0 i) (hc1 : ¬run2_c1 i) (x0 : Vec F S2048x2048 .bf16) (x1 : Vec F S2048x32 .f32) (x2 : Vec F S2048x64 .f32) (x3 : Vec F S32x32 .f32) (x4 : Vec F S64x32 .f32) (x5 : Vec F S1x32 .f32)

-- k = 0: the accumulator is overwritten with zero and then with zero plus the first column block's product; the output block is not written.
set_option maxHeartbeats 4000000 in
noncomputable def kernelRun2_A :
    Σ' (L6 : List (View.Piece (Elt F) S2048x32 .f32)), { LS0 : List (View.Piece (Elt F) S2048x32 .f32) //
      ∀ (xi6 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2__gcs_kernel i arg2 harg2 arg3 harg3 arg4 harg4 arg5 harg5 arg6 harg6 arg7 harg7 arg8 harg8 arg9 harg9) K } := by
  refine ⟨[], ?_, fun xi6 E K => ?run⟩
  case run =>
    simp only [cc2__gcs_kernel_eq_skeleton]; unfold cc2__gcs_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end A

section B
variable (hc0 : ¬run2_c0 i) (hc1 : ¬run2_c1 i) (x0 : Vec F S2048x2048 .bf16) (x1 : Vec F S2048x32 .f32) (x2 : Vec F S2048x64 .f32) (x3 : Vec F S32x32 .f32) (x4 : Vec F S64x32 .f32) (x5 : Vec F S1x32 .f32) (xs0 : Vec F S2048x32 .f32)

-- 0 < k < 7: the accumulator gains this column block's product; the output block is not written.
set_option maxHeartbeats 4000000 in
noncomputable def kernelRun2_B :
    Σ' (L6 : List (View.Piece (Elt F) S2048x32 .f32)), { LS0 : List (View.Piece (Elt F) S2048x32 .f32) //
      ∀ (xi6 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2__gcs_kernel i arg2 harg2 arg3 harg3 arg4 harg4 arg5 harg5 arg6 harg6 arg7 harg7 arg8 harg8 arg9 harg9) K } := by
  refine ⟨[], ?_, fun xi6 E K => ?run⟩
  case run =>
    simp only [cc2__gcs_kernel_eq_skeleton]; unfold cc2__gcs_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end B

section C
variable (hc0 : ¬run2_c0 i) (hc1 : run2_c1 i) (x0 : Vec F S2048x2048 .bf16) (x1 : Vec F S2048x32 .f32) (x2 : Vec F S2048x64 .f32) (x3 : Vec F S32x32 .f32) (x4 : Vec F S64x32 .f32) (x5 : Vec F S1x32 .f32) (xs0 : Vec F S2048x32 .f32)

-- k = 7: the accumulator gains the last product, and the row block max(accumulator + X W2 + b, 0) is written.
set_option maxHeartbeats 4000000 in
noncomputable def kernelRun2_C :
    Σ' (L6 : List (View.Piece (Elt F) S2048x32 .f32)), { LS0 : List (View.Piece (Elt F) S2048x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc2__gcs_kernel i arg2 harg2 arg3 harg3 arg4 harg4 arg5 harg5 arg6 harg6 arg7 harg7 arg8 harg8 arg9 harg9) K } := by
  refine ⟨?_, ?_, fun E K => ?run⟩
  case run =>
    simp only [cc2__gcs_kernel_eq_skeleton]; unfold cc2__gcs_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end C

end body

end Cert.KernelIdeal.Hand

end
-- ==== Proof.KI.Gcs2.lean ====
import proofs.«115539_j71236327571877_1_alg».proof.Proof.KI.Gcs2Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop := run2_c0 i

-- In the linear order of the 64 grid points (k fastest) the column block is the first at every eighth point,
theorem hcond2_0 : ∀ t : Fin cfg2.N, cond2_0 (grid2.coords t) ↔ t.val % 8 = 0 :=
  (by decide +kernel : ∀ t : Fin grid2.N, cond2_0 (grid2.coords t) ↔ t.val % 8 = 0)

abbrev cond2_1 (i : grid2.Coords) : Prop := run2_c1 i

-- and the last at every eighth point from the eighth.
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel

theorem idleAt2_6_A : ∀ t : Fin cfg2.N, cond2_0 (grid2.coords t) → ¬cond2_1 (grid2.coords t) → cfg2.idle 6 (grid2.coords t) = true := by decide +kernel
theorem noFlush2_6_A : ∀ t : Fin cfg2.N, cond2_0 (grid2.coords t) → ¬cond2_1 (grid2.coords t) → (cfg2.win 6).flush t = false := by decide +kernel

theorem idleAt2_6_B : ∀ t : Fin cfg2.N, ¬cond2_0 (grid2.coords t) → ¬cond2_1 (grid2.coords t) → cfg2.idle 6 (grid2.coords t) = true := by decide +kernel
theorem noFlush2_6_B : ∀ t : Fin cfg2.N, ¬cond2_0 (grid2.coords t) → ¬cond2_1 (grid2.coords t) → (cfg2.win 6).flush t = false := by decide +kernel

theorem liveAt2_6_C : ∀ t : Fin cfg2.N, ¬cond2_0 (grid2.coords t) → cond2_1 (grid2.coords t) → cfg2.idle 6 (grid2.coords t) = false := by decide +kernel

abbrev VO2_6 : View sig .tc .vmem S2048x32 .f32 := (Memref.whole cc2_stg6_0 : Memref sig .tc .vmem S2048x32 .f32).view

abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x32 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S32x32 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x32 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x32 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S2048x32 .f32 := win2_6.stage (cfg2.slots t 6)
abbrev hs2_6 (t : Fin cfg2.N) : (ms2_6 t).IsWhole := hstage2_6 ((cfg2.slots t 6).cast nbuf2_6)

abbrev scM2_0 : Memref sig .tc .vmem S2048x32 .f32 := Memref.whole cc2_scratch0

abbrev VS2_0 : View sig .tc .vmem S2048x32 .f32 := scM2_0.view

theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

section body
variable (c : Dev nD) (i : grid2.Coords) (arg2 : Memref sig .tc .vmem S2048x2048 .bf16) (harg2 : arg2.IsWhole) (arg3 : Memref sig .tc .vmem S2048x32 .f32) (harg3 : arg3.IsWhole) (arg4 : Memref sig .tc .vmem S2048x64 .f32) (harg4 : arg4.IsWhole) (arg5 : Memref sig .tc .vmem S32x32 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole)

section A
variable (hc0 : cond2_0 i) (hc1 : ¬cond2_1 i) (x0 : Vec F S2048x2048 .bf16) (x1 : Vec F S2048x32 .f32) (x2 : Vec F S2048x64 .f32) (x3 : Vec F S32x32 .f32) (x4 : Vec F S64x32 .f32) (x5 : Vec F S1x32 .f32)

def out2_A_6 : Vec F S2048x32 .f32 :=
  VO2_6.read (Elt F) (VO2_6.writes (Elt F) VO2_6.junk (kernelRun2_A c i arg2 harg2 arg3 harg3 arg4 harg4 arg5 harg5 arg6 harg6 arg7 harg7 arg8 harg8 arg9 harg9 hc0 hc1 x0 x1 x2 x3 x4 x5).1)

theorem scover2_A_0 (y : S2048x32.Idx) :
    ∃ pc ∈ (kernelRun2_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun2_A c i arg2 harg2 arg3 harg3 arg4 harg4 arg5 harg5 arg6 harg6 arg7 harg7 arg8 harg8 arg9 harg9 hc0 hc1 x0 x1 x2 x3 x4 x5).2.1 S2048x32.size (by sl_kernel_rfl) y

def sout2_A_0 : Vec F S2048x32 .f32 :=
  VS2_0.read (Elt F) (VS2_0.writes (Elt F) VS2_0.junk (kernelRun2_A c i arg2 harg2 arg3 harg3 arg4 harg4 arg5 harg5 arg6 harg6 arg7 harg7 arg8 harg8 arg9 harg9 hc0 hc1 x0 x1 x2 x3 x4 x5).2.1)

end A

section B
variable (hc0 : ¬cond2_0 i) (hc1 : ¬cond2_1 i) (x0 : Vec F S2048x2048 .bf16) (x1 : Vec F S2048x32 .f32) (x2 : Vec F S2048x64 .f32) (x3 : Vec F S32x32 .f32) (x4 : Vec F S64x32 .f32) (x5 : Vec F S1x32 .f32) (xs0 : Vec F S2048x32 .f32)

def out2_B_6 : Vec F S2048x32 .f32 :=
  VO2_6.read (Elt F) (VO2_6.writes (Elt F) VO2_6.junk (kernelRun2_B c i arg2 harg2 arg3 harg3 arg4 harg4 arg5 harg5 arg6 harg6 arg7 harg7 arg8 harg8 arg9 harg9 hc0 hc1 x0 x1 x2 x3 x4 x5 xs0).1)

theorem scover2_B_0 (y : S2048x32.Idx) :
    ∃ pc ∈ (kernelRun2_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_B c i arg2 harg2 arg3 harg3 arg4 harg4 arg5 harg5 arg6 harg6 arg7 harg7 arg8 harg8 arg9 harg9 hc0 hc1 x0 x1 x2 x3 x4 x5 xs0).2.1 S2048x32.size (by sl_kernel_rfl) y

def sout2_B_0 : Vec F S2048x32 .f32 :=
  VS2_0.read (Elt F) (VS2_0.writes (Elt F) VS2_0.junk (kernelRun2_B c i arg2 harg2 arg3 harg3 arg4 harg4 arg5 harg5 arg6 harg6 arg7 harg7 arg8 harg8 arg9 harg9 hc0 hc1 x0 x1 x2 x3 x4 x5 xs0).2.1)

end B

section C
variable (hc0 : ¬cond2_0 i) (hc1 : cond2_1 i) (x0 : Vec F S2048x2048 .bf16) (x1 : Vec F S2048x32 .f32) (x2 : Vec F S2048x64 .f32) (x3 : Vec F S32x32 .f32) (x4 : Vec F S64x32 .f32) (x5 : Vec F S1x32 .f32) (xs0 : Vec F S2048x32 .f32)

theorem cover2_C_6 (y : S2048x32.Idx) :
    ∃ pc ∈ (kernelRun2_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).1 S2048x32.size (by sl_kernel_rfl) y

def out2_C_6 : Vec F S2048x32 .f32 :=
  VO2_6.read (Elt F) (VO2_6.writes (Elt F) VO2_6.junk (kernelRun2_C c i arg2 harg2 arg3 harg3 arg4 harg4 arg5 harg5 arg6 harg6 arg7 harg7 arg8 harg8 arg9 harg9 hc0 hc1 x0 x1 x2 x3 x4 x5 xs0).1)

theorem scover2_C_0 (y : S2048x32.Idx) :
    ∃ pc ∈ (kernelRun2_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).2.1 S2048x32.size (by sl_kernel_rfl) y

def sout2_C_0 : Vec F S2048x32 .f32 :=
  VS2_0.read (Elt F) (VS2_0.writes (Elt F) VS2_0.junk (kernelRun2_C c i arg2 harg2 arg3 harg3 arg4 harg4 arg5 harg5 arg6 harg6 arg7 harg7 arg8 harg8 arg9 harg9 hc0 hc1 x0 x1 x2 x3 x4 x5 xs0).2.1)

end C

end body

variable (V : (c : Dev nD) → (b : Ref sig .tc) → Buf (Elt F) ((c : Thread nD τ).loc b))

def q2 : Fin cfg2.W → PosShare TreeShare := fun w => fullShare

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rest2 (c : Dev nD) : sProp 𝕄 := Pipeline.scopedRestBut (Ix := Unit) (Name := ℕ) (U := UR sig nD τ) (Lvl := ℕ) (Val := Elt F) spec2 c [cc2_scratch0]

def pairA2 (c : Dev nD) (t : Fin cfg2.N) (h0 : t.val % 8 = 0) (h1 : ¬t.val % 8 = 7) : Vec F S2048x32 .f32 × Vec F S2048x32 .f32 :=
  (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t),
   sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t))

def pairB2 (c : Dev nD) (t : Fin cfg2.N) (h0 : ¬t.val % 8 = 0) (h1 : ¬t.val % 8 = 7) (xs0 : Vec F S2048x32 .f32) : Vec F S2048x32 .f32 × Vec F S2048x32 .f32 :=
  (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) xs0,
   sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) xs0)

def pairC2 (c : Dev nD) (t : Fin cfg2.N) (h0 : ¬t.val % 8 = 0) (h1 : t.val % 8 = 7) (xs0 : Vec F S2048x32 .f32) : Vec F S2048x32 .f32 × Vec F S2048x32 .f32 :=
  (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) xs0,
   sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) xs0)

-- What the output block and the accumulator hold after the n-th point: a point with k = 0 starts afresh, any other continues from what the point before left.
def outsAt2 (V : (c : Dev nD) → (b : Ref sig .tc) → Buf (Elt F) ((c : Thread nD τ).loc b)) (c : Dev nD) : (n : ℕ) → n < cfg2.N → Vec F S2048x32 .f32 × Vec F S2048x32 .f32
  | 0, hn => pairA2 V c ⟨0, hn⟩ (Nat.zero_mod _) (fun h => by (try dsimp only at h); omega)
  | n + 1, hn =>
    if h0 : (n + 1) % 8 = 0 then
      if h1 : (n + 1) % 8 = 7 then
        False.elim (by omega)
      else
        pairA2 V c ⟨n + 1, hn⟩ h0 h1
    else
      if h1 : (n + 1) % 8 = 7 then
        pairC2 V c ⟨n + 1, hn⟩ h0 h1 (outsAt2 V c n (Nat.lt_of_succ_lt hn)).2
      else
        pairB2 V c ⟨n + 1, hn⟩ h0 h1 (outsAt2 V c n (Nat.lt_of_succ_lt hn)).2

theorem outsAt2_A (c : Dev nD) (t : Fin cfg2.N) (h0 : t.val % 8 = 0) (h1 : ¬t.val % 8 = 7) :
    outsAt2 V c t.val t.isLt = pairA2 V c t h0 h1 := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = pairB2 V c t h0 h1 (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = pairC2 V c t h0 h1 (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

-- Between points the accumulator is owned at exactly what the point before left in it.
def PhiS2 (V : (c : Dev nD) → (b : Ref sig .tc) → Buf (Elt F) ((c : Thread nD τ).loc b)) (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 (F := F) c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q w := q2 w
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)

theorem leaves2_0 (c : Dev nD) (t : Fin cfg2.N) : (dat2 V c).leavesExact 0 t = owns (c : Thread nD τ) (ms2_0 t) fullShare (iblk2 V c 0 t) := by
  rw [← after2_0]; first | done | (unfold Dat.leavesExact; rw [liveAt2_0 t])
theorem leaves2_1 (c : Dev nD) (t : Fin cfg2.N) : (dat2 V c).leavesExact 1 t = owns (c : Thread nD τ) (ms2_1 t) fullShare (iblk2 V c 1 t) := by
  rw [← after2_1]; first | done | (unfold Dat.leavesExact; rw [liveAt2_1 t])
theorem leaves2_2 (c : Dev nD) (t : Fin cfg2.N) : (dat2 V c).leavesExact 2 t = owns (c : Thread nD τ) (ms2_2 t) fullShare (iblk2 V c 2 t) := by
  rw [← after2_2]; first | done | (unfold Dat.leavesExact; rw [liveAt2_2 t])
theorem leaves2_3 (c : Dev nD) (t : Fin cfg2.N) : (dat2 V c).leavesExact 3 t = owns (c : Thread nD τ) (ms2_3 t) fullShare (iblk2 V c 3 t) := by
  rw [← after2_3]; first | done | (unfold Dat.leavesExact; rw [liveAt2_3 t])
theorem leaves2_4 (c : Dev nD) (t : Fin cfg2.N) : (dat2 V c).leavesExact 4 t = owns (c : Thread nD τ) (ms2_4 t) fullShare (iblk2 V c 4 t) := by
  rw [← after2_4]; first | done | (unfold Dat.leavesExact; rw [liveAt2_4 t])
theorem leaves2_5 (c : Dev nD) (t : Fin cfg2.N) : (dat2 V c).leavesExact 5 t = owns (c : Thread nD τ) (ms2_5 t) fullShare (iblk2 V c 5 t) := by
  rw [← after2_5]; first | done | (unfold Dat.leavesExact; rw [liveAt2_5 t])

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

-- The body takes the invariant before a point to the invariant after it; the position modulo 8 says which of the three runs applies.
set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5, PhiS2_castSucc V c t]
  have hN : t.val < 64 := lt_of_lt_of_eq t.isLt (show cfg2.N = 64 from N_2)
  by_cases h0 : t.val % 8 = 0
  · have h1 : ¬t.val % 8 = 7 := by omega
    have hc0 := (hcond2_0 t).mpr h0
    have hc1 : ¬cond2_1 (grid2.coords t) := fun h => h1 ((hcond2_1 t).mp h)
    rw [Dat.leavesExact_idle (dat2 V c) 6 t (idleAt2_6_A t hc0 hc1) (noFlush2_6_A t hc0 hc1), outsAt2_A V c t h0 h1]
    unfold pairA2 sout2_A_0; (try dsimp only)
    by_cases hz : t.val = 0
    on_goal 1 => rw [PhiS2_zero V c _ _ hz, PhiA2_eq]
    on_goal 2 => rw [PhiS2_pos V c _ _ hz]
    all_goals
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_A c (grid2.coords t) _ _ _ _ _ _ _ _ _ _ _ _ _ _ _ _ hc0 hc1 (iblk2 V c 0 t) (iblk2 V c 1 t) (iblk2 V c 2 t) (iblk2 V c 3 t) (iblk2 V c 4 t) (iblk2 V c 5 t)).2.2 _ Set.univ _)
      iframe H0 H1 H2 H3 H4 H5 H6
      isplitl [HS0]; · first | iexact HS0 | (iexists _; iexact HS0)
      iintro ⟨H0, H1, H2, H3, H4, H5, H6, ⟨%es0, HS0⟩⟩
      iframe Hr Hg Ho H0 H1 H2 H3 H4 H5
      isplitl [HS0]
      · unfold owns; iexists _; isplitr
        swap; · iexact HS0
        ipureintro; exact View.read_writes_of_cover _ _ _ _ _ (scover2_A_0 c _ _ _ _ _ _ _ _ _ _ _ _ _ _ _ _ _ _ _ _ _ _ _ _ _)
      iexists _; iexact H6
  · have hc0 : ¬cond2_0 (grid2.coords t) := fun h => h0 ((hcond2_0 t).mp h)
    have hz : t.val ≠ 0 := fun h => h0 (by rw [h])
    rw [PhiS2_pos V c _ _ hz]
    by_cases h1 : t.val % 8 = 7
    · have hc1 := (hcond2_1 t).mpr h1
      rw [show (dat2 V c).leavesExact 6 t = owns (c : Thread nD τ) (ms2_6 t) fullShare ((dat2 V c).after 6 t) from by
        unfold Dat.leavesExact; rw [liveAt2_6_C t hc0 hc1], after2_6, outsAt2_C V c t h0 h1]
      unfold pairC2 out2_C_6 sout2_C_0; (try dsimp only)
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) _ _ _ _ _ _ _ _ _ _ _ _ _ _ _ _ hc0 hc1 (iblk2 V c 0 t) (iblk2 V c 1 t) (iblk2 V c 2 t) (iblk2 V c 3 t) (iblk2 V c 4 t) (iblk2 V c 5 t) _).2.2 Set.univ _)
      iframe H0 H1 H2 H3 H4 H5 HS0
      isplitl [H6]; · iexists _; iexact H6
      iintro ⟨H0, H1, H2, H3, H4, H5, ⟨%e6, H6⟩, ⟨%es0, HS0⟩⟩
      iframe Hr Hg Ho H0 H1 H2 H3 H4 H5
      isplitl [HS0]
      · unfold owns; iexists _; isplitr
        swap; · iexact HS0
        ipureintro; exact View.read_writes_of_cover _ _ _ _ _ (scover2_C_0 c _ _ _ _ _ _ _ _ _ _ _ _ _ _ _ _ _ _ _ _ _ _ _ _ _ _)
      unfold owns; iexists _; isplitr
      swap; · iexact H6
      ipureintro; exact View.read_writes_of_cover _ _ _ _ _ (cover2_C_6 c _ _ _ _ _ _ _ _ _ _ _ _ _ _ _ _ _ _ _ _ _ _ _ _ _ _)
    · have hc1 : ¬cond2_1 (grid2.coords t) := fun h => h1 ((hcond2_1 t).mp h)
      rw [Dat.leavesExact_idle (dat2 V c) 6 t (idleAt2_6_B t hc0 hc1) (noFlush2_6_B t hc0 hc1), outsAt2_B V c t h0 h1]
      unfold pairB2 sout2_B_0; (try dsimp only)
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) _ _ _ _ _ _ _ _ _ _ _ _ _ _ _ _ hc0 hc1 (iblk2 V c 0 t) (iblk2 V c 1 t) (iblk2 V c 2 t) (iblk2 V c 3 t) (iblk2 V c 4 t) (iblk2 V c 5 t) _).2.2 _ Set.univ _)
      iframe H0 H1 H2 H3 H4 H5 H6 HS0
      iintro ⟨H0, H1, H2, H3, H4, H5, H6, ⟨%es0, HS0⟩⟩
      iframe Hr Hg Ho H0 H1 H2 H3 H4 H5
      isplitl [HS0]
      · unfold owns; iexists _; isplitr
        swap; · iexact HS0
        ipureintro; exact View.read_writes_of_cover _ _ _ _ _ (scover2_B_0 c _ _ _ _ _ _ _ _ _ _ _ _ _ _ _ _ _ _ _ _ _ _ _ _ _ _)
      iexists _; iexact H6

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

theorem hout2 (c : Dev nD) : (dat2 V c).Φ (Fin.last cfg2.N) ⊢ Pipeline.ΦA spec2 c :=
  Phi_out2 V c _ (by rw [Fin.val_last]; have : cfg2.N = 64 := N_2; omega)

end Cert.KernelIdeal.Hand

end
-- ==== Proof.KI.Gcs3.lean ====
import proofs.«115539_j71236327571877_1_alg».proof.Proof.KI.Gcs1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond3_0 (i : grid3.Coords) : Prop := run1_c0 i

-- In the linear order of the 64 grid points (k fastest) the column block is the first at every eighth point,
theorem hcond3_0 : ∀ t : Fin cfg3.N, cond3_0 (grid3.coords t) ↔ t.val % 8 = 0 :=
  (by decide +kernel : ∀ t : Fin grid3.N, cond3_0 (grid3.coords t) ↔ t.val % 8 = 0)

abbrev cond3_1 (i : grid3.Coords) : Prop := run1_c1 i

-- and the last at every eighth point from the eighth.
theorem hcond3_1 : ∀ t : Fin cfg3.N, cond3_1 (grid3.coords t) ↔ t.val % 8 = 7 :=
  (by decide +kernel : ∀ t : Fin grid3.N, cond3_1 (grid3.coords t) ↔ t.val % 8 = 7)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel

theorem idleAt3_6_A : ∀ t : Fin cfg3.N, cond3_0 (grid3.coords t) → ¬cond3_1 (grid3.coords t) → cfg3.idle 6 (grid3.coords t) = true := by decide +kernel
theorem noFlush3_6_A : ∀ t : Fin cfg3.N, cond3_0 (grid3.coords t) → ¬cond3_1 (grid3.coords t) → (cfg3.win 6).flush t = false := by decide +kernel

theorem idleAt3_6_B : ∀ t : Fin cfg3.N, ¬cond3_0 (grid3.coords t) → ¬cond3_1 (grid3.coords t) → cfg3.idle 6 (grid3.coords t) = true := by decide +kernel
theorem noFlush3_6_B : ∀ t : Fin cfg3.N, ¬cond3_0 (grid3.coords t) → ¬cond3_1 (grid3.coords t) → (cfg3.win 6).flush t = false := by decide +kernel

theorem liveAt3_6_C : ∀ t : Fin cfg3.N, ¬cond3_0 (grid3.coords t) → cond3_1 (grid3.coords t) → cfg3.idle 6 (grid3.coords t) = false := by decide +kernel

abbrev VO3_6 : View sig .tc .vmem S2048x32 .f32 := (Memref.whole cc3_stg6_0 : Memref sig .tc .vmem S2048x32 .f32).view

abbrev ms3_0 (t : Fin cfg3.N) : Memref sig .tc .vmem S2048x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S64x32 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S64x32 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x32 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S2048x32 .f32 := win3_6.stage (cfg3.slots t 6)
abbrev hs3_6 (t : Fin cfg3.N) : (ms3_6 t).IsWhole := hstage3_6 ((cfg3.slots t 6).cast nbuf3_6)

abbrev scM3_0 : Memref sig .tc .vmem S2048x32 .f32 := Memref.whole cc3_scratch0

abbrev VS3_0 : View sig .tc .vmem S2048x32 .f32 := scM3_0.view

theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

section body
variable (c : Dev nD) (i : grid3.Coords) (arg2 : Memref sig .tc .vmem S2048x2048 .bf16) (harg2 : arg2.IsWhole) (arg3 : Memref sig .tc .vmem S2048x64 .f32) (harg3 : arg3.IsWhole) (arg4 : Memref sig .tc .vmem S2048x64 .f32) (harg4 : arg4.IsWhole) (arg5 : Memref sig .tc .vmem S64x32 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole)

section A
variable (hc0 : cond3_0 i) (hc1 : ¬cond3_1 i) (x0 : Vec F S2048x2048 .bf16) (x1 : Vec F S2048x64 .f32) (x2 : Vec F S2048x64 .f32) (x3 : Vec F S64x32 .f32) (x4 : Vec F S64x32 .f32) (x5 : Vec F S1x32 .f32)

def out3_A_6 : Vec F S2048x32 .f32 :=
  VO3_6.read (Elt F) (VO3_6.writes (Elt F) VO3_6.junk (kernelRun1_A c i arg2 harg2 arg3 harg3 arg4 harg4 arg5 harg5 arg6 harg6 arg7 harg7 arg8 harg8 arg9 harg9 hc0 hc1 x0 x1 x2 x3 x4 x5).1)

theorem scover3_A_0 (y : S2048x32.Idx) :
    ∃ pc ∈ (kernelRun1_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).2.1 S2048x32.size (by sl_kernel_rfl) y

def sout3_A_0 : Vec F S2048x32 .f32 :=
  VS3_0.read (Elt F) (VS3_0.writes (Elt F) VS3_0.junk (kernelRun1_A c i arg2 harg2 arg3 harg3 arg4 harg4 arg5 harg5 arg6 harg6 arg7 harg7 arg8 harg8 arg9 harg9 hc0 hc1 x0 x1 x2 x3 x4 x5).2.1)

end A

section B
variable (hc0 : ¬cond3_0 i) (hc1 : ¬cond3_1 i) (x0 : Vec F S2048x2048 .bf16) (x1 : Vec F S2048x64 .f32) (x2 : Vec F S2048x64 .f32) (x3 : Vec F S64x32 .f32) (x4 : Vec F S64x32 .f32) (x5 : Vec F S1x32 .f32) (xs0 : Vec F S2048x32 .f32)

def out3_B_6 : Vec F S2048x32 .f32 :=
  VO3_6.read (Elt F) (VO3_6.writes (Elt F) VO3_6.junk (kernelRun1_B c i arg2 harg2 arg3 harg3 arg4 harg4 arg5 harg5 arg6 harg6 arg7 harg7 arg8 harg8 arg9 harg9 hc0 hc1 x0 x1 x2 x3 x4 x5 xs0).1)

theorem scover3_B_0 (y : S2048x32.Idx) :
    ∃ pc ∈ (kernelRun1_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).2.1 S2048x32.size (by sl_kernel_rfl) y

def sout3_B_0 : Vec F S2048x32 .f32 :=
  VS3_0.read (Elt F) (VS3_0.writes (Elt F) VS3_0.junk (kernelRun1_B c i arg2 harg2 arg3 harg3 arg4 harg4 arg5 harg5 arg6 harg6 arg7 harg7 arg8 harg8 arg9 harg9 hc0 hc1 x0 x1 x2 x3 x4 x5 xs0).2.1)

end B

section C
variable (hc0 : ¬cond3_0 i) (hc1 : cond3_1 i) (x0 : Vec F S2048x2048 .bf16) (x1 : Vec F S2048x64 .f32) (x2 : Vec F S2048x64 .f32) (x3 : Vec F S64x32 .f32) (x4 : Vec F S64x32 .f32) (x5 : Vec F S1x32 .f32) (xs0 : Vec F S2048x32 .f32)

theorem cover3_C_6 (y : S2048x32.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S2048x32.size (by sl_kernel_rfl) y

def out3_C_6 : Vec F S2048x32 .f32 :=
  VO3_6.read (Elt F) (VO3_6.writes (Elt F) VO3_6.junk (kernelRun1_C c i arg2 harg2 arg3 harg3 arg4 harg4 arg5 harg5 arg6 harg6 arg7 harg7 arg8 harg8 arg9 harg9 hc0 hc1 x0 x1 x2 x3 x4 x5 xs0).1)

theorem scover3_C_0 (y : S2048x32.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S2048x32.size (by sl_kernel_rfl) y

def sout3_C_0 : Vec F S2048x32 .f32 :=
  VS3_0.read (Elt F) (VS3_0.writes (Elt F) VS3_0.junk (kernelRun1_C c i arg2 harg2 arg3 harg3 arg4 harg4 arg5 harg5 arg6 harg6 arg7 harg7 arg8 harg8 arg9 harg9 hc0 hc1 x0 x1 x2 x3 x4 x5 xs0).2.1)

end C

end body

variable (V : (c : Dev nD) → (b : Ref sig .tc) → Buf (Elt F) ((c : Thread nD τ).loc b))

def q3 : Fin cfg3.W → PosShare TreeShare := fun w => if w = 1 then fullShare.left else if w = 2 then fullShare.right else fullShare

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rest3 (c : Dev nD) : sProp 𝕄 := Pipeline.scopedRestBut (Ix := Unit) (Name := ℕ) (U := UR sig nD τ) (Lvl := ℕ) (Val := Elt F) spec3 c [cc3_scratch0]

def pairA3 (c : Dev nD) (t : Fin cfg3.N) (h0 : t.val % 8 = 0) (h1 : ¬t.val % 8 = 7) : Vec F S2048x32 .f32 × Vec F S2048x32 .f32 :=
  (out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t),
   sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t))

def pairB3 (c : Dev nD) (t : Fin cfg3.N) (h0 : ¬t.val % 8 = 0) (h1 : ¬t.val % 8 = 7) (xs0 : Vec F S2048x32 .f32) : Vec F S2048x32 .f32 × Vec F S2048x32 .f32 :=
  (out3_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) xs0,
   sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) xs0)

def pairC3 (c : Dev nD) (t : Fin cfg3.N) (h0 : ¬t.val % 8 = 0) (h1 : t.val % 8 = 7) (xs0 : Vec F S2048x32 .f32) : Vec F S2048x32 .f32 × Vec F S2048x32 .f32 :=
  (out3_C_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) xs0,
   sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) xs0)

-- What the output block and the accumulator hold after the n-th point: a point with k = 0 starts afresh, any other continues from what the point before left.
def outsAt3 (V : (c : Dev nD) → (b : Ref sig .tc) → Buf (Elt F) ((c : Thread nD τ).loc b)) (c : Dev nD) : (n : ℕ) → n < cfg3.N → Vec F S2048x32 .f32 × Vec F S2048x32 .f32
  | 0, hn => pairA3 V c ⟨0, hn⟩ (Nat.zero_mod _) (fun h => by (try dsimp only at h); omega)
  | n + 1, hn =>
    if h0 : (n + 1) % 8 = 0 then
      if h1 : (n + 1) % 8 = 7 then
        False.elim (by omega)
      else
        pairA3 V c ⟨n + 1, hn⟩ h0 h1
    else
      if h1 : (n + 1) % 8 = 7 then
        pairC3 V c ⟨n + 1, hn⟩ h0 h1 (outsAt3 V c n (Nat.lt_of_succ_lt hn)).2
      else
        pairB3 V c ⟨n + 1, hn⟩ h0 h1 (outsAt3 V c n (Nat.lt_of_succ_lt hn)).2

theorem outsAt3_A (c : Dev nD) (t : Fin cfg3.N) (h0 : t.val % 8 = 0) (h1 : ¬t.val % 8 = 7) :
    outsAt3 V c t.val t.isLt = pairA3 V c t h0 h1 := by
  obtain ⟨n, hn⟩ := t
  cases n with
  | zero => exact rfl
  | succ n => exact (dif_pos h0).trans ((dif_neg h1).trans rfl)

theorem outsAt3_B (c : Dev nD) (t : Fin cfg3.N) (h0 : ¬t.val % 8 = 0) (h1 : ¬t.val % 8 = 7) :
    outsAt3 V c t.val t.isLt = pairB3 V c t h0 h1 (outsAt3 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 8 = 0) (h1 : t.val % 8 = 7) :
    outsAt3 V c t.val t.isLt = pairC3 V c t h0 h1 (outsAt3 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

-- Between points the accumulator is owned at exactly what the point before left in it.
def PhiS3 (V : (c : Dev nD) → (b : Ref sig .tc) → Buf (Elt F) ((c : Thread nD τ).loc b)) (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ rest3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ rest3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ rest3 (F := F) c) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => (outsAt3 V c t.val t.isLt).1
  Φ t := PhiS3 V c t.val (Nat.le_of_lt_succ t.isLt)
  q w := q3 w
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = (outsAt3 V c t.val t.isLt).1 := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)

theorem leaves3_0 (c : Dev nD) (t : Fin cfg3.N) : (dat3 V c).leavesExact 0 t = owns (c : Thread nD τ) (ms3_0 t) fullShare (iblk3 V c 0 t) := by
  rw [← after3_0]; first | done | (unfold Dat.leavesExact; rw [liveAt3_0 t])
theorem leaves3_1 (c : Dev nD) (t : Fin cfg3.N) : (dat3 V c).leavesExact 1 t = owns (c : Thread nD τ) (ms3_1 t) fullShare (iblk3 V c 1 t) := by
  rw [← after3_1]; first | done | (unfold Dat.leavesExact; rw [liveAt3_1 t])
theorem leaves3_2 (c : Dev nD) (t : Fin cfg3.N) : (dat3 V c).leavesExact 2 t = owns (c : Thread nD τ) (ms3_2 t) fullShare (iblk3 V c 2 t) := by
  rw [← after3_2]; first | done | (unfold Dat.leavesExact; rw [liveAt3_2 t])
theorem leaves3_3 (c : Dev nD) (t : Fin cfg3.N) : (dat3 V c).leavesExact 3 t = owns (c : Thread nD τ) (ms3_3 t) fullShare (iblk3 V c 3 t) := by
  rw [← after3_3]; first | done | (unfold Dat.leavesExact; rw [liveAt3_3 t])
theorem leaves3_4 (c : Dev nD) (t : Fin cfg3.N) : (dat3 V c).leavesExact 4 t = owns (c : Thread nD τ) (ms3_4 t) fullShare (iblk3 V c 4 t) := by
  rw [← after3_4]; first | done | (unfold Dat.leavesExact; rw [liveAt3_4 t])
theorem leaves3_5 (c : Dev nD) (t : Fin cfg3.N) : (dat3 V c).leavesExact 5 t = owns (c : Thread nD τ) (ms3_5 t) fullShare (iblk3 V c 5 t) := by
  rw [← after3_5]; first | done | (unfold Dat.leavesExact; rw [liveAt3_5 t])

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

-- The body takes the invariant before a point to the invariant after it; the position modulo 8 says which of the three runs applies.
set_option maxHeartbeats 8000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3; rw [show @cc3__gcs_kernel F _ = @cc1__gcs_kernel F _ from rfl]
  simp only [before3_0, before3_1, before3_2, before3_3, before3_4, before3_5]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3, leaves3_4, leaves3_5, PhiS3_castSucc V c t]
  have hN : t.val < 64 := lt_of_lt_of_eq t.isLt (show cfg3.N = 64 from N_3)
  by_cases h0 : t.val % 8 = 0
  · have h1 : ¬t.val % 8 = 7 := by omega
    have hc0 := (hcond3_0 t).mpr h0
    have hc1 : ¬cond3_1 (grid3.coords t) := fun h => h1 ((hcond3_1 t).mp h)
    rw [Dat.leavesExact_idle (dat3 V c) 6 t (idleAt3_6_A t hc0 hc1) (noFlush3_6_A t hc0 hc1), outsAt3_A V c t h0 h1]
    unfold pairA3 sout3_A_0; (try dsimp only)
    by_cases hz : t.val = 0
    on_goal 1 => rw [PhiS3_zero V c _ _ hz, PhiA3_eq]
    on_goal 2 => rw [PhiS3_pos V c _ _ hz]
    all_goals
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid3.coords t) _ _ _ _ _ _ _ _ _ _ _ _ _ _ _ _ hc0 hc1 (iblk3 V c 0 t) (iblk3 V c 1 t) (iblk3 V c 2 t) (iblk3 V c 3 t) (iblk3 V c 4 t) (iblk3 V c 5 t)).2.2 _ Set.univ _)
      iframe H0 H1 H2 H3 H4 H5 H6
      isplitl [HS0]; · first | iexact HS0 | (iexists _; iexact HS0)
      iintro ⟨H0, H1, H2, H3, H4, H5, H6, ⟨%es0, HS0⟩⟩
      iframe Hr Hg Ho H0 H1 H2 H3 H4 H5
      isplitl [HS0]
      · unfold owns; iexists _; isplitr
        swap; · iexact HS0
        ipureintro; exact View.read_writes_of_cover _ _ _ _ _ (scover3_A_0 c _ _ _ _ _ _ _ _ _ _ _ _ _ _ _ _ _ _ _ _ _ _ _ _ _)
      iexists _; iexact H6
  · have hc0 : ¬cond3_0 (grid3.coords t) := fun h => h0 ((hcond3_0 t).mp h)
    have hz : t.val ≠ 0 := fun h => h0 (by rw [h])
    rw [PhiS3_pos V c _ _ hz]
    by_cases h1 : t.val % 8 = 7
    · have hc1 := (hcond3_1 t).mpr h1
      rw [show (dat3 V c).leavesExact 6 t = owns (c : Thread nD τ) (ms3_6 t) fullShare ((dat3 V c).after 6 t) from by
        unfold Dat.leavesExact; rw [liveAt3_6_C t hc0 hc1], after3_6, outsAt3_C V c t h0 h1]
      unfold pairC3 out3_C_6 sout3_C_0; (try dsimp only)
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid3.coords t) _ _ _ _ _ _ _ _ _ _ _ _ _ _ _ _ hc0 hc1 (iblk3 V c 0 t) (iblk3 V c 1 t) (iblk3 V c 2 t) (iblk3 V c 3 t) (iblk3 V c 4 t) (iblk3 V c 5 t) _).2.2 Set.univ _)
      iframe H0 H1 H2 H3 H4 H5 HS0
      isplitl [H6]; · iexists _; iexact H6
      iintro ⟨H0, H1, H2, H3, H4, H5, ⟨%e6, H6⟩, ⟨%es0, HS0⟩⟩
      iframe Hr Hg Ho H0 H1 H2 H3 H4 H5
      isplitl [HS0]
      · unfold owns; iexists _; isplitr
        swap; · iexact HS0
        ipureintro; exact View.read_writes_of_cover _ _ _ _ _ (scover3_C_0 c _ _ _ _ _ _ _ _ _ _ _ _ _ _ _ _ _ _ _ _ _ _ _ _ _ _)
      unfold owns; iexists _; isplitr
      swap; · iexact H6
      ipureintro; exact View.read_writes_of_cover _ _ _ _ _ (cover3_C_6 c _ _ _ _ _ _ _ _ _ _ _ _ _ _ _ _ _ _ _ _ _ _ _ _ _ _)
    · have hc1 : ¬cond3_1 (grid3.coords t) := fun h => h1 ((hcond3_1 t).mp h)
      rw [Dat.leavesExact_idle (dat3 V c) 6 t (idleAt3_6_B t hc0 hc1) (noFlush3_6_B t hc0 hc1), outsAt3_B V c t h0 h1]
      unfold pairB3 sout3_B_0; (try dsimp only)
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid3.coords t) _ _ _ _ _ _ _ _ _ _ _ _ _ _ _ _ hc0 hc1 (iblk3 V c 0 t) (iblk3 V c 1 t) (iblk3 V c 2 t) (iblk3 V c 3 t) (iblk3 V c 4 t) (iblk3 V c 5 t) _).2.2 _ Set.univ _)
      iframe H0 H1 H2 H3 H4 H5 H6 HS0
      iintro ⟨H0, H1, H2, H3, H4, H5, H6, ⟨%es0, HS0⟩⟩
      iframe Hr Hg Ho H0 H1 H2 H3 H4 H5
      isplitl [HS0]
      · unfold owns; iexists _; isplitr
        swap; · iexact HS0
        ipureintro; exact View.read_writes_of_cover _ _ _ _ _ (scover3_B_0 c _ _ _ _ _ _ _ _ _ _ _ _ _ _ _ _ _ _ _ _ _ _ _ _ _ _)
      iexists _; iexact H6

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hr⟩, Hg⟩
  isplitl [HS0 Hr]
  · isplitl [HS0]
    · iexists _; iexact HS0
    iexact Hr
  iexact Hg

theorem hout3 (c : Dev nD) : (dat3 V c).Φ (Fin.last cfg3.N) ⊢ Pipeline.ΦA spec3 c :=
  Phi_out3 V c _ (by rw [Fin.val_last]; have : cfg3.N = 64 := N_3; omega)

end Cert.KernelIdeal.Hand

end
-- ==== Proof.KI.Gcs4.lean ====
import proofs.«115539_j71236327571877_1_alg».proof.Proof.KI.Gcs2Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond4_0 (i : grid4.Coords) : Prop := run2_c0 i

-- In the linear order of the 64 grid points (k fastest) the column block is the first at every eighth point,
theorem hcond4_0 : ∀ t : Fin cfg4.N, cond4_0 (grid4.coords t) ↔ t.val % 8 = 0 :=
  (by decide +kernel : ∀ t : Fin grid4.N, cond4_0 (grid4.coords t) ↔ t.val % 8 = 0)

abbrev cond4_1 (i : grid4.Coords) : Prop := run2_c1 i

-- and the last at every eighth point from the eighth.
theorem hcond4_1 : ∀ t : Fin cfg4.N, cond4_1 (grid4.coords t) ↔ t.val % 8 = 7 :=
  (by decide +kernel : ∀ t : Fin grid4.N, cond4_1 (grid4.coords t) ↔ t.val % 8 = 7)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel

theorem idleAt4_6_A : ∀ t : Fin cfg4.N, cond4_0 (grid4.coords t) → ¬cond4_1 (grid4.coords t) → cfg4.idle 6 (grid4.coords t) = true := by decide +kernel
theorem noFlush4_6_A : ∀ t : Fin cfg4.N, cond4_0 (grid4.coords t) → ¬cond4_1 (grid4.coords t) → (cfg4.win 6).flush t = false := by decide +kernel

theorem idleAt4_6_B : ∀ t : Fin cfg4.N, ¬cond4_0 (grid4.coords t) → ¬cond4_1 (grid4.coords t) → cfg4.idle 6 (grid4.coords t) = true := by decide +kernel
theorem noFlush4_6_B : ∀ t : Fin cfg4.N, ¬cond4_0 (grid4.coords t) → ¬cond4_1 (grid4.coords t) → (cfg4.win 6).flush t = false := by decide +kernel

theorem liveAt4_6_C : ∀ t : Fin cfg4.N, ¬cond4_0 (grid4.coords t) → cond4_1 (grid4.coords t) → cfg4.idle 6 (grid4.coords t) = false := by decide +kernel

abbrev VO4_6 : View sig .tc .vmem S2048x32 .f32 := (Memref.whole cc4_stg6_0 : Memref sig .tc .vmem S2048x32 .f32).view

abbrev ms4_0 (t : Fin cfg4.N) : Memref sig .tc .vmem S2048x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x32 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S32x32 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S64x32 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x32 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S2048x32 .f32 := win4_6.stage (cfg4.slots t 6)
abbrev hs4_6 (t : Fin cfg4.N) : (ms4_6 t).IsWhole := hstage4_6 ((cfg4.slots t 6).cast nbuf4_6)

abbrev scM4_0 : Memref sig .tc .vmem S2048x32 .f32 := Memref.whole cc4_scratch0

abbrev VS4_0 : View sig .tc .vmem S2048x32 .f32 := scM4_0.view

theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

section body
variable (c : Dev nD) (i : grid4.Coords) (arg2 : Memref sig .tc .vmem S2048x2048 .bf16) (harg2 : arg2.IsWhole) (arg3 : Memref sig .tc .vmem S2048x32 .f32) (harg3 : arg3.IsWhole) (arg4 : Memref sig .tc .vmem S2048x64 .f32) (harg4 : arg4.IsWhole) (arg5 : Memref sig .tc .vmem S32x32 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole)

section A
variable (hc0 : cond4_0 i) (hc1 : ¬cond4_1 i) (x0 : Vec F S2048x2048 .bf16) (x1 : Vec F S2048x32 .f32) (x2 : Vec F S2048x64 .f32) (x3 : Vec F S32x32 .f32) (x4 : Vec F S64x32 .f32) (x5 : Vec F S1x32 .f32)

def out4_A_6 : Vec F S2048x32 .f32 :=
  VO4_6.read (Elt F) (VO4_6.writes (Elt F) VO4_6.junk (kernelRun2_A c i arg2 harg2 arg3 harg3 arg4 harg4 arg5 harg5 arg6 harg6 arg7 harg7 arg8 harg8 arg9 harg9 hc0 hc1 x0 x1 x2 x3 x4 x5).1)

theorem scover4_A_0 (y : S2048x32.Idx) :
    ∃ pc ∈ (kernelRun2_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun2_A c i arg2 harg2 arg3 harg3 arg4 harg4 arg5 harg5 arg6 harg6 arg7 harg7 arg8 harg8 arg9 harg9 hc0 hc1 x0 x1 x2 x3 x4 x5).2.1 S2048x32.size (by sl_kernel_rfl) y

def sout4_A_0 : Vec F S2048x32 .f32 :=
  VS4_0.read (Elt F) (VS4_0.writes (Elt F) VS4_0.junk (kernelRun2_A c i arg2 harg2 arg3 harg3 arg4 harg4 arg5 harg5 arg6 harg6 arg7 harg7 arg8 harg8 arg9 harg9 hc0 hc1 x0 x1 x2 x3 x4 x5).2.1)

end A

section B
variable (hc0 : ¬cond4_0 i) (hc1 : ¬cond4_1 i) (x0 : Vec F S2048x2048 .bf16) (x1 : Vec F S2048x32 .f32) (x2 : Vec F S2048x64 .f32) (x3 : Vec F S32x32 .f32) (x4 : Vec F S64x32 .f32) (x5 : Vec F S1x32 .f32) (xs0 : Vec F S2048x32 .f32)

def out4_B_6 : Vec F S2048x32 .f32 :=
  VO4_6.read (Elt F) (VO4_6.writes (Elt F) VO4_6.junk (kernelRun2_B c i arg2 harg2 arg3 harg3 arg4 harg4 arg5 harg5 arg6 harg6 arg7 harg7 arg8 harg8 arg9 harg9 hc0 hc1 x0 x1 x2 x3 x4 x5 xs0).1)

theorem scover4_B_0 (y : S2048x32.Idx) :
    ∃ pc ∈ (kernelRun2_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_B c i arg2 harg2 arg3 harg3 arg4 harg4 arg5 harg5 arg6 harg6 arg7 harg7 arg8 harg8 arg9 harg9 hc0 hc1 x0 x1 x2 x3 x4 x5 xs0).2.1 S2048x32.size (by sl_kernel_rfl) y

def sout4_B_0 : Vec F S2048x32 .f32 :=
  VS4_0.read (Elt F) (VS4_0.writes (Elt F) VS4_0.junk (kernelRun2_B c i arg2 harg2 arg3 harg3 arg4 harg4 arg5 harg5 arg6 harg6 arg7 harg7 arg8 harg8 arg9 harg9 hc0 hc1 x0 x1 x2 x3 x4 x5 xs0).2.1)

end B

section C
variable (hc0 : ¬cond4_0 i) (hc1 : cond4_1 i) (x0 : Vec F S2048x2048 .bf16) (x1 : Vec F S2048x32 .f32) (x2 : Vec F S2048x64 .f32) (x3 : Vec F S32x32 .f32) (x4 : Vec F S64x32 .f32) (x5 : Vec F S1x32 .f32) (xs0 : Vec F S2048x32 .f32)

theorem cover4_C_6 (y : S2048x32.Idx) :
    ∃ pc ∈ (kernelRun2_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).1 S2048x32.size (by sl_kernel_rfl) y

def out4_C_6 : Vec F S2048x32 .f32 :=
  VO4_6.read (Elt F) (VO4_6.writes (Elt F) VO4_6.junk (kernelRun2_C c i arg2 harg2 arg3 harg3 arg4 harg4 arg5 harg5 arg6 harg6 arg7 harg7 arg8 harg8 arg9 harg9 hc0 hc1 x0 x1 x2 x3 x4 x5 xs0).1)

theorem scover4_C_0 (y : S2048x32.Idx) :
    ∃ pc ∈ (kernelRun2_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).2.1 S2048x32.size (by sl_kernel_rfl) y

def sout4_C_0 : Vec F S2048x32 .f32 :=
  VS4_0.read (Elt F) (VS4_0.writes (Elt F) VS4_0.junk (kernelRun2_C c i arg2 harg2 arg3 harg3 arg4 harg4 arg5 harg5 arg6 harg6 arg7 harg7 arg8 harg8 arg9 harg9 hc0 hc1 x0 x1 x2 x3 x4 x5 xs0).2.1)

end C

end body

variable (V : (c : Dev nD) → (b : Ref sig .tc) → Buf (Elt F) ((c : Thread nD τ).loc b))

def q4 : Fin cfg4.W → PosShare TreeShare := fun w => fullShare

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rest4 (c : Dev nD) : sProp 𝕄 := Pipeline.scopedRestBut (Ix := Unit) (Name := ℕ) (U := UR sig nD τ) (Lvl := ℕ) (Val := Elt F) spec4 c [cc4_scratch0]

def pairA4 (c : Dev nD) (t : Fin cfg4.N) (h0 : t.val % 8 = 0) (h1 : ¬t.val % 8 = 7) : Vec F S2048x32 .f32 × Vec F S2048x32 .f32 :=
  (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t),
   sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t))

def pairB4 (c : Dev nD) (t : Fin cfg4.N) (h0 : ¬t.val % 8 = 0) (h1 : ¬t.val % 8 = 7) (xs0 : Vec F S2048x32 .f32) : Vec F S2048x32 .f32 × Vec F S2048x32 .f32 :=
  (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) xs0,
   sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) xs0)

def pairC4 (c : Dev nD) (t : Fin cfg4.N) (h0 : ¬t.val % 8 = 0) (h1 : t.val % 8 = 7) (xs0 : Vec F S2048x32 .f32) : Vec F S2048x32 .f32 × Vec F S2048x32 .f32 :=
  (out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) xs0,
   sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) xs0)

-- What the output block and the accumulator hold after the n-th point: a point with k = 0 starts afresh, any other continues from what the point before left.
def outsAt4 (V : (c : Dev nD) → (b : Ref sig .tc) → Buf (Elt F) ((c : Thread nD τ).loc b)) (c : Dev nD) : (n : ℕ) → n < cfg4.N → Vec F S2048x32 .f32 × Vec F S2048x32 .f32
  | 0, hn => pairA4 V c ⟨0, hn⟩ (Nat.zero_mod _) (fun h => by (try dsimp only at h); omega)
  | n + 1, hn =>
    if h0 : (n + 1) % 8 = 0 then
      if h1 : (n + 1) % 8 = 7 then
        False.elim (by omega)
      else
        pairA4 V c ⟨n + 1, hn⟩ h0 h1
    else
      if h1 : (n + 1) % 8 = 7 then
        pairC4 V c ⟨n + 1, hn⟩ h0 h1 (outsAt4 V c n (Nat.lt_of_succ_lt hn)).2
      else
        pairB4 V c ⟨n + 1, hn⟩ h0 h1 (outsAt4 V c n (Nat.lt_of_succ_lt hn)).2

theorem outsAt4_A (c : Dev nD) (t : Fin cfg4.N) (h0 : t.val % 8 = 0) (h1 : ¬t.val % 8 = 7) :
    outsAt4 V c t.val t.isLt = pairA4 V c t h0 h1 := by
  obtain ⟨n, hn⟩ := t
  cases n with
  | zero => exact rfl
  | succ n => exact (dif_pos h0).trans ((dif_neg h1).trans rfl)

theorem outsAt4_B (c : Dev nD) (t : Fin cfg4.N) (h0 : ¬t.val % 8 = 0) (h1 : ¬t.val % 8 = 7) :
    outsAt4 V c t.val t.isLt = pairB4 V c t h0 h1 (outsAt4 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 8 = 0) (h1 : t.val % 8 = 7) :
    outsAt4 V c t.val t.isLt = pairC4 V c t h0 h1 (outsAt4 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

-- Between points the accumulator is owned at exactly what the point before left in it.
def PhiS4 (V : (c : Dev nD) → (b : Ref sig .tc) → Buf (Elt F) ((c : Thread nD τ).loc b)) (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ rest4 (F := F) c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2) ∗ rest4 (F := F) c) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ rest4 (F := F) c) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
  Φ t := PhiS4 V c t.val (Nat.le_of_lt_succ t.isLt)
  q w := q4 w
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl) (fun t => by rw [after4_4]; unfold Dat.blockOf iblk4; rw [A_eq4]; try rfl) t d).trans
    (by unfold Dat.fetched Dat.blockOf iblk4; rw [A_eq4]; try rfl)
theorem before4_5 (c : Dev nD) (t : Fin cfg4.N) (d) : (dat4 V c).before 5 t d = iblk4 V c 5 t :=
  ((dat4 V c).before_in_eq_fetched 5 rfl (fun _ => rfl) (fun _ _ _ => rfl) (fun t => by rw [after4_5]; unfold Dat.blockOf iblk4; rw [A_eq4]; try rfl) t d).trans
    (by unfold Dat.fetched Dat.blockOf iblk4; rw [A_eq4]; try rfl)

theorem leaves4_0 (c : Dev nD) (t : Fin cfg4.N) : (dat4 V c).leavesExact 0 t = owns (c : Thread nD τ) (ms4_0 t) fullShare (iblk4 V c 0 t) := by
  rw [← after4_0]; first | done | (unfold Dat.leavesExact; rw [liveAt4_0 t])
theorem leaves4_1 (c : Dev nD) (t : Fin cfg4.N) : (dat4 V c).leavesExact 1 t = owns (c : Thread nD τ) (ms4_1 t) fullShare (iblk4 V c 1 t) := by
  rw [← after4_1]; first | done | (unfold Dat.leavesExact; rw [liveAt4_1 t])
theorem leaves4_2 (c : Dev nD) (t : Fin cfg4.N) : (dat4 V c).leavesExact 2 t = owns (c : Thread nD τ) (ms4_2 t) fullShare (iblk4 V c 2 t) := by
  rw [← after4_2]; first | done | (unfold Dat.leavesExact; rw [liveAt4_2 t])
theorem leaves4_3 (c : Dev nD) (t : Fin cfg4.N) : (dat4 V c).leavesExact 3 t = owns (c : Thread nD τ) (ms4_3 t) fullShare (iblk4 V c 3 t) := by
  rw [← after4_3]; first | done | (unfold Dat.leavesExact; rw [liveAt4_3 t])
theorem leaves4_4 (c : Dev nD) (t : Fin cfg4.N) : (dat4 V c).leavesExact 4 t = owns (c : Thread nD τ) (ms4_4 t) fullShare (iblk4 V c 4 t) := by
  rw [← after4_4]; first | done | (unfold Dat.leavesExact; rw [liveAt4_4 t])
theorem leaves4_5 (c : Dev nD) (t : Fin cfg4.N) : (dat4 V c).leavesExact 5 t = owns (c : Thread nD τ) (ms4_5 t) fullShare (iblk4 V c 5 t) := by
  rw [← after4_5]; first | done | (unfold Dat.leavesExact; rw [liveAt4_5 t])

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

-- The body takes the invariant before a point to the invariant after it; the position modulo 8 says which of the three runs applies.
set_option maxHeartbeats 8000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4; rw [show @cc4__gcs_kernel F _ = @cc2__gcs_kernel F _ from rfl]
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  rw [leaves4_0, leaves4_1, leaves4_2, leaves4_3, leaves4_4, leaves4_5, PhiS4_castSucc V c t]
  have hN : t.val < 64 := lt_of_lt_of_eq t.isLt (show cfg4.N = 64 from N_4)
  by_cases h0 : t.val % 8 = 0
  · have h1 : ¬t.val % 8 = 7 := by omega
    have hc0 := (hcond4_0 t).mpr h0
    have hc1 : ¬cond4_1 (grid4.coords t) := fun h => h1 ((hcond4_1 t).mp h)
    rw [Dat.leavesExact_idle (dat4 V c) 6 t (idleAt4_6_A t hc0 hc1) (noFlush4_6_A t hc0 hc1), outsAt4_A V c t h0 h1]
    unfold pairA4 sout4_A_0; (try dsimp only)
    by_cases hz : t.val = 0
    on_goal 1 => rw [PhiS4_zero V c _ _ hz, PhiA4_eq]
    on_goal 2 => rw [PhiS4_pos V c _ _ hz]
    all_goals
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_A c (grid4.coords t) _ _ _ _ _ _ _ _ _ _ _ _ _ _ _ _ hc0 hc1 (iblk4 V c 0 t) (iblk4 V c 1 t) (iblk4 V c 2 t) (iblk4 V c 3 t) (iblk4 V c 4 t) (iblk4 V c 5 t)).2.2 _ Set.univ _)
      iframe H0 H1 H2 H3 H4 H5 H6
      isplitl [HS0]; · first | iexact HS0 | (iexists _; iexact HS0)
      iintro ⟨H0, H1, H2, H3, H4, H5, H6, ⟨%es0, HS0⟩⟩
      iframe Hr Hg Ho H0 H1 H2 H3 H4 H5
      isplitl [HS0]
      · unfold owns; iexists _; isplitr
        swap; · iexact HS0
        ipureintro; exact View.read_writes_of_cover _ _ _ _ _ (scover4_A_0 c _ _ _ _ _ _ _ _ _ _ _ _ _ _ _ _ _ _ _ _ _ _ _ _ _)
      iexists _; iexact H6
  · have hc0 : ¬cond4_0 (grid4.coords t) := fun h => h0 ((hcond4_0 t).mp h)
    have hz : t.val ≠ 0 := fun h => h0 (by rw [h])
    rw [PhiS4_pos V c _ _ hz]
    by_cases h1 : t.val % 8 = 7
    · have hc1 := (hcond4_1 t).mpr h1
      rw [show (dat4 V c).leavesExact 6 t = owns (c : Thread nD τ) (ms4_6 t) fullShare ((dat4 V c).after 6 t) from by
        unfold Dat.leavesExact; rw [liveAt4_6_C t hc0 hc1], after4_6, outsAt4_C V c t h0 h1]
      unfold pairC4 out4_C_6 sout4_C_0; (try dsimp only)
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid4.coords t) _ _ _ _ _ _ _ _ _ _ _ _ _ _ _ _ hc0 hc1 (iblk4 V c 0 t) (iblk4 V c 1 t) (iblk4 V c 2 t) (iblk4 V c 3 t) (iblk4 V c 4 t) (iblk4 V c 5 t) _).2.2 Set.univ _)
      iframe H0 H1 H2 H3 H4 H5 HS0
      isplitl [H6]; · iexists _; iexact H6
      iintro ⟨H0, H1, H2, H3, H4, H5, ⟨%e6, H6⟩, ⟨%es0, HS0⟩⟩
      iframe Hr Hg Ho H0 H1 H2 H3 H4 H5
      isplitl [HS0]
      · unfold owns; iexists _; isplitr
        swap; · iexact HS0
        ipureintro; exact View.read_writes_of_cover _ _ _ _ _ (scover4_C_0 c _ _ _ _ _ _ _ _ _ _ _ _ _ _ _ _ _ _ _ _ _ _ _ _ _ _)
      unfold owns; iexists _; isplitr
      swap; · iexact H6
      ipureintro; exact View.read_writes_of_cover _ _ _ _ _ (cover4_C_6 c _ _ _ _ _ _ _ _ _ _ _ _ _ _ _ _ _ _ _ _ _ _ _ _ _ _)
    · have hc1 : ¬cond4_1 (grid4.coords t) := fun h => h1 ((hcond4_1 t).mp h)
      rw [Dat.leavesExact_idle (dat4 V c) 6 t (idleAt4_6_B t hc0 hc1) (noFlush4_6_B t hc0 hc1), outsAt4_B V c t h0 h1]
      unfold pairB4 sout4_B_0; (try dsimp only)
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid4.coords t) _ _ _ _ _ _ _ _ _ _ _ _ _ _ _ _ hc0 hc1 (iblk4 V c 0 t) (iblk4 V c 1 t) (iblk4 V c 2 t) (iblk4 V c 3 t) (iblk4 V c 4 t) (iblk4 V c 5 t) _).2.2 _ Set.univ _)
      iframe H0 H1 H2 H3 H4 H5 H6 HS0
      iintro ⟨H0, H1, H2, H3, H4, H5, H6, ⟨%es0, HS0⟩⟩
      iframe Hr Hg Ho H0 H1 H2 H3 H4 H5
      isplitl [HS0]
      · unfold owns; iexists _; isplitr
        swap; · iexact HS0
        ipureintro; exact View.read_writes_of_cover _ _ _ _ _ (scover4_B_0 c _ _ _ _ _ _ _ _ _ _ _ _ _ _ _ _ _ _ _ _ _ _ _ _ _ _)
      iexists _; iexact H6

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

theorem hout4 (c : Dev nD) : (dat4 V c).Φ (Fin.last cfg4.N) ⊢ Pipeline.ΦA spec4 c :=
  Phi_out4 V c _ (by rw [Fin.val_last]; have : cfg4.N = 64 := N_4; omega)

end Cert.KernelIdeal.Hand

end
-- ==== Proof.KI.Run.lean ====
import proofs.«115539_j71236327571877_1_alg».proof.Proof.KI.Cast
import proofs.«115539_j71236327571877_1_alg».proof.Proof.KI.Gcs1
import proofs.«115539_j71236327571877_1_alg».proof.Proof.KI.Gcs2
import proofs.«115539_j71236327571877_1_alg».proof.Proof.KI.Gcs3
import proofs.«115539_j71236327571877_1_alg».proof.Proof.KI.Gcs4
import proofs.«115539_j71236327571877_1_alg».proof.Proof.Gen.KernelIdeal.Regions

import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev rd (W : Dev nD → Valuation τ sig (Elt F)) : (c : Dev nD) → (b : Ref sig .tc) → Buf (Elt F) ((c : Thread nD τ).loc b) :=
  fun c b => W c b
abbrev V0 := rd (W0 m ρ)

def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N :=
  Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) :=
  Pipeline.withArrays_of_ne spec0 c _ _ b hb

abbrev W2 : Dev nD → Valuation τ sig (Elt F) := fun c => StableHlo.after hostOps1 (W1 m ρ c)
abbrev V2 := rd (W2 m ρ)

def W3 (c : Dev nD) : Valuation τ sig (Elt F) :=
  Function.update (W2 m ρ c) (Proc.devRef .tc main_v2) ((dat1 (V2 m ρ) c).arrAt 6 cfg1.N)
theorem W3_out (c : Dev nD) : W3 m ρ c (Proc.devRef .tc main_v2) = (dat1 (V2 m ρ) c).arrAt 6 cfg1.N :=
  Function.update_self ..
theorem W3_of_ne (c : Dev nD) (b : Ref sig .tc) (hb : b ≠ main_v2) :
    W3 m ρ c (Proc.devRef .tc b) = W2 m ρ c (Proc.devRef .tc b) :=
  Function.update_of_ne (StableHlo.devRef_ne_of_ne hb) _ _

abbrev W4 : Dev nD → Valuation τ sig (Elt F) := fun c => StableHlo.after hostOps2 (W3 m ρ c)
abbrev V4 := rd (W4 m ρ)

def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N :=
  Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) :=
  Pipeline.withArrays_of_ne spec2 c _ _ b hb

abbrev W6 : Dev nD → Valuation τ sig (Elt F) := fun c => StableHlo.after hostOps3 (W5 m ρ c)
abbrev V6 := rd (W6 m ρ)

def W7 (c : Dev nD) : Valuation τ sig (Elt F) :=
  Function.update (W6 m ρ c) (Proc.devRef .tc main_v6) ((dat3 (V6 m ρ) c).arrAt 6 cfg3.N)
theorem W7_out (c : Dev nD) : W7 m ρ c (Proc.devRef .tc main_v6) = (dat3 (V6 m ρ) c).arrAt 6 cfg3.N :=
  Function.update_self ..
theorem W7_of_ne (c : Dev nD) (b : Ref sig .tc) (hb : b ≠ main_v6) :
    W7 m ρ c (Proc.devRef .tc b) = W6 m ρ c (Proc.devRef .tc b) :=
  Function.update_of_ne (StableHlo.devRef_ne_of_ne hb) _ _

abbrev W8 : Dev nD → Valuation τ sig (Elt F) := fun c => StableHlo.after hostOps4 (W7 m ρ c)
abbrev V8 := rd (W8 m ρ)

def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N :=
  Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) :=
  Pipeline.withArrays_of_ne spec4 c _ _ b hb

abbrev W10 : Dev nD → Valuation τ sig (Elt F) := fun c => StableHlo.after hostOps5 (W9 m ρ c)

/-- Either no array is `b`, or one is and it ends as it began. -/
theorem keep {gr W : ℕ} {win : Fin W → Pipeline.WinSpec sig gr} (hinj : Function.Injective (Pipeline.arrRef win)) (c : Dev nD)
    (V : Valuation τ sig (Elt F)) (A : (w : Fin W) → Buf (Elt F) ((win w).arr.view.loc (c : Thread nD τ))) {b : Ref sig .tc}
    (h : ∀ w, Pipeline.arrRef win w = b → A w = V (Proc.devRef .tc (Pipeline.arrRef win w))) :
    Pipeline.withArrays win c V A (Proc.devRef .tc b) = V (Proc.devRef .tc b) := by
  by_cases hb : ∀ w, Pipeline.arrRef win w ≠ b
  · exact Pipeline.withArrays_of_ne win c V A b hb
  · obtain ⟨w, hw⟩ := not_forall.mp hb
    obtain rfl := not_not.mp hw
    exact (Pipeline.withArrays_arr win hinj c V A w).trans (h w rfl)

theorem W1_keep (c : Dev nD) {b : Ref sig .tc} (hb : b ≠ main_v0) : W1 m ρ c (Proc.devRef .tc b) = W0 m ρ c (Proc.devRef .tc b) :=
  keep launch0.win.arr_inj c _ _ fun w e => ((dat0 (V0 m ρ) c).arrAt_in w
    ((by decide : ∀ w : Fin cfg0.W, Pipeline.arrRef spec0 w ≠ main_v0 → (cfg0.win w).isOut = false) w (e ▸ hb)) _).trans (A_eq0 (V0 m ρ) c w)
theorem W5_keep (c : Dev nD) {b : Ref sig .tc} (hb : b ≠ main_v4) : W5 m ρ c (Proc.devRef .tc b) = W4 m ρ c (Proc.devRef .tc b) :=
  keep launch2.win.arr_inj c _ _ fun w e => ((dat2 (V4 m ρ) c).arrAt_in w
    ((by decide : ∀ w : Fin cfg2.W, Pipeline.arrRef spec2 w ≠ main_v4 → (cfg2.win w).isOut = false) w (e ▸ hb)) _).trans (A_eq2 (V4 m ρ) c w)
theorem W9_keep (c : Dev nD) {b : Ref sig .tc} (hb : b ≠ main_v8) : W9 m ρ c (Proc.devRef .tc b) = W8 m ρ c (Proc.devRef .tc b) :=
  keep launch4.win.arr_inj c _ _ fun w e => ((dat4 (V8 m ρ) c).arrAt_in w
    ((by decide : ∀ w : Fin cfg4.W, Pipeline.arrRef spec4 w ≠ main_v8 → (cfg4.win w).isOut = false) w (e ▸ hb)) _).trans (A_eq4 (V8 m ρ) c w)

abbrev args : List (Ref sig .tc) :=
  [main_arg0, main_arg1, main_arg2, main_arg3, main_arg4, main_arg5, main_arg6, main_arg7, main_arg8, main_arg9, main_arg10, main_arg11, main_arg12, main_arg13]

def Wn : ℕ → Dev nD → Valuation τ sig (Elt F)
  | 0 => W0 m ρ | 1 => W1 m ρ | 2 => W2 m ρ | 3 => W3 m ρ | 4 => W4 m ρ | 5 => W5 m ρ
  | 6 => W6 m ρ | 7 => W7 m ρ | 8 => W8 m ρ | 9 => W9 m ρ | _ => W10 m ρ
/-- What step `k` of the fold may change. -/
def wr : ℕ → List (Ref sig .tc)
  | 0 => [main_v0] | 1 => hostOps1_W | 2 => [main_v2] | 3 => hostOps2_W | 4 => [main_v4] | 5 => hostOps3_W
  | 6 => [main_v6] | 7 => hostOps4_W | 8 => [main_v8] | 9 => hostOps5_W | _ => []

theorem step_keep (c : Dev nD) {b : Ref sig .tc} :
    ∀ k, b ∉ wr k → Wn m ρ (k + 1) c (Proc.devRef .tc b) = Wn m ρ k c (Proc.devRef .tc b)
  | 0, h => W1_keep m ρ c (List.ne_of_not_mem_cons h)
  | 1, h => StableHlo.after_of_writes_sub hostOps1 _ hostOps1_writes h
  | 2, h => W3_of_ne m ρ c b (List.ne_of_not_mem_cons h)
  | 3, h => StableHlo.after_of_writes_sub hostOps2 _ hostOps2_writes h
  | 4, h => W5_keep m ρ c (List.ne_of_not_mem_cons h)
  | 5, h => StableHlo.after_of_writes_sub hostOps3 _ hostOps3_writes h
  | 6, h => W7_of_ne m ρ c b (List.ne_of_not_mem_cons h)
  | 7, h => StableHlo.after_of_writes_sub hostOps4 _ hostOps4_writes h
  | 8, h => W9_keep m ρ c (List.ne_of_not_mem_cons h)
  | 9, h => StableHlo.after_of_writes_sub hostOps5 _ hostOps5_writes h
  | _ + 10, _ => rfl

/-- A buffer none of steps `i` … `i + d - 1` may change is after them as before them. -/
theorem kept (c : Dev nD) {b : Ref sig .tc} (i d : ℕ) (h : ∀ k < d, b ∉ wr (i + k) := by decide) :
    Wn m ρ (i + d) c (Proc.devRef .tc b) = Wn m ρ i c (Proc.devRef .tc b) := by
  induction d with
  | zero => rfl
  | succ d ih => exact (step_keep m ρ c (i + d) (h d d.lt_succ_self)).trans (ih fun k hk => h k (Nat.lt_succ_of_lt hk))

theorem W10_arg (c : Dev nD) {b : Ref sig .tc} (hb : b ∈ args) : W10 m ρ c (Proc.devRef .tc b) = m ((c : Thread nD τ).loc b) :=
  kept m ρ c 0 10 ((by decide : ∀ b ∈ args, ∀ k < 10, b ∉ wr (0 + k)) b hb)

def pdats : (p : Fin 5) → (c : Dev nD) → Dat τ (Elt F) Unit ℕ (UR sig nD τ) ℕ (Pipeline.pin (pcfgs (F := F)) adm p) c
  | ⟨0, _⟩ => dat0 (V0 m ρ)
  | ⟨1, _⟩ => dat1 (V2 m ρ)
  | ⟨2, _⟩ => dat2 (V4 m ρ)
  | ⟨3, _⟩ => dat3 (V6 m ρ)
  | ⟨4, _⟩ => dat4 (V8 m ρ)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev ucHeld (c : Dev nD) (W : Valuation τ sig (Elt F)) : sProp 𝕄 := StableHlo.held (c : Thread nD τ) (Pipeline.ucRefs τ sig) W
abbrev ucRest (p : Fin 5) (c : Dev nD) (W : Dev nD → Valuation τ sig (Elt F)) : sProp 𝕄 :=
  Pipeline.unscopedRest (Ix := Unit) (Name := ℕ) (U := UR sig nD τ) (Lvl := ℕ) (cfgs p).spec c (rd W c)
/-- The region's arrays before and after, the rest unchanged: the contents go from `W` to `W'`. -/
abbrev InOut (p : Fin 5) (c : Dev nD) (W W' : Dev nD → Valuation τ sig (Elt F)) : Prop :=
  (ucHeld c (W c) ⊢ iprop((pdats m ρ p c).arrays ((pdats m ρ p c).arrAt · 0) ∗ ucRest p c W))
    ∧ (iprop((pdats m ρ p c).arrays ((pdats m ρ p c).arrAt · (cfgs p).N) ∗ ucRest p c W) ⊢ ucHeld c (W' c))

/-- Distinct arrays: `W'` is `W` with the arrays at their final contents. -/
theorem inj_io {p : Fin 5} (lf : Pipeline.LaunchFacts (nD := nD) (τ := τ) cfgs p) (c : Dev nD)
    (hs : ∀ w, (pdats m ρ p c).share w = fullShare) (W W' : Dev nD → Valuation τ sig (Elt F))
    (hA : ∀ w, (pdats m ρ p c).A w = rd W c (Pipeline.arrRef (cfgs p).spec w))
    (hF : ∀ w, (pdats m ρ p c).arrAt w (cfgs p).N = rd W' c (Pipeline.arrRef (cfgs p).spec w))
    (hr : ∀ b, (∀ w, Pipeline.arrRef (cfgs p).spec w ≠ b) → rd W' c b = rd W c b) : InOut m ρ p c W W' :=
  ⟨(Entails.of_eq (Pipeline.unscopedBufs_held c (W c)).symm).trans
      (Pipeline.arrays_of_unscopedBufs (p := p) (pcfgs (F := F)) adm (pdats m ρ) lf.win lf.arr_whole c hs (rd W c) hA),
    (Pipeline.unscopedBufs_of_arrays (p := p) (pcfgs (F := F)) adm (Ix := Unit) (Name := ℕ) (U := UR sig nD τ) (Lvl := ℕ) lf.win lf.arr_whole c (pdats m ρ) hs (rd W c) (rd W' c) _ hF
      fun b hb => hr b fun w e => hb (Finset.mem_image.mpr ⟨w, Finset.mem_univ _, e⟩)).trans
      (Entails.of_eq (Pipeline.unscopedBufs_held c (W' c)))⟩

/-- Arrays that may coincide, given how they make up the buffers behind them. -/
theorem shared_io (p : Fin 5) (hu : ∀ w, (Pipeline.arrRef (cfgs p).spec w).isScoped = false) (c : Dev nD)
    (har : ∀ V : (b : Ref sig .tc) → Buf (Elt F) ((c : Thread nD τ).loc b),
      (pdats m ρ p c).arrays (fun w => V (Pipeline.arrRef (cfgs p).spec w)) = (Pipeline.arrBufs (Ix := Unit) (Name := ℕ) (U := UR sig nD τ) (Lvl := ℕ) (cfgs p).spec c V : sProp 𝕄))
    (W W' : Dev nD → Valuation τ sig (Elt F))
    (hA : ∀ w, (pdats m ρ p c).arrAt w 0 = rd W c (Pipeline.arrRef (cfgs p).spec w))
    (hF : ∀ w, (pdats m ρ p c).arrAt w (cfgs p).N = rd W' c (Pipeline.arrRef (cfgs p).spec w))
    (hr : ∀ b, b ∉ Finset.univ.image (Pipeline.arrRef (cfgs p).spec) → rd W' c b = rd W c b) : InOut m ρ p c W W' := by
  have e := fun V : Valuation τ sig (Elt F) => (Pipeline.unscopedBufs_held (Ix := Unit) (Name := ℕ) (U := UR sig nD τ) (Lvl := ℕ) c V).symm.trans
    (Pipeline.unscopedBufs_split₀ (Ix := Unit) (Name := ℕ) (U := UR sig nD τ) (Lvl := ℕ) cfgs p hu c fun b => V b)
  unfold InOut ucHeld
  rw [e, e, show ((pdats m ρ p c).arrAt · 0) = _ from funext hA, show ((pdats m ρ p c).arrAt · (cfgs p).N) = _ from funext hF, har (rd W c), har (rd W' c)]
  refine ⟨.rfl, sep_mono .rfl (Entails.of_eq ?_)⟩
  unfold ucRest Pipeline.unscopedRest
  exact bigSep_congr fun b hb => by rw [← hr b (Finset.mem_sdiff.mp hb).2]

/-- One conjunct of a chain split in two. -/
theorem sep7 {P0 P1 P2 P3 P4 P5 P6 Q : sProp 𝕄} (h : Q ⊣⊢ iprop(P1 ∗ P2)) :
    iprop(P0 ∗ P1 ∗ P2 ∗ P3 ∗ P4 ∗ P5 ∗ P6) = iprop(P0 ∗ Q ∗ P3 ∗ P4 ∗ P5 ∗ P6) := by
  rw [Entails.antisymm h.1 h.2]
  exact congrArg (BIBase.sep P0) (Entails.antisymm BI.sep_assoc' BI.sep_assoc)

/-- Windows 1 and 2 have the same array. -/
theorem arrays1 (c : Dev nD) (V') (V : (b : Ref sig .tc) → Buf (Elt F) ((c : Thread nD τ).loc b)) :
    (dat1 (F := F) V' c).arrays (fun w => V (Pipeline.arrRef spec1 w)) = (Pipeline.arrBufs (Ix := Unit) (Name := ℕ) (U := UR sig nD τ) (Lvl := ℕ) spec1 c V : sProp 𝕄) := by
  unfold Dat.arrays Pipeline.arrBufs
  rw [bigSep_W1, bigSep_eq_bigSepL_of_eq [main_v0, main_arg0, main_arg2, main_arg3, main_v1, main_v2] (by decide) (by decide),
    (arr_whole1 0).set_eq_univ, (arr_whole1 1).set_eq_univ, (arr_whole1 3).set_eq_univ, (arr_whole1 4).set_eq_univ,
    (arr_whole1 5).set_eq_univ, (arr_whole1 6).set_eq_univ]
  exact sep7 (pointsTo_share (PosShare.mem_left_op_right fullShare))
theorem arrays3 (c : Dev nD) (V') (V : (b : Ref sig .tc) → Buf (Elt F) ((c : Thread nD τ).loc b)) :
    (dat3 (F := F) V' c).arrays (fun w => V (Pipeline.arrRef spec3 w)) = (Pipeline.arrBufs (Ix := Unit) (Name := ℕ) (U := UR sig nD τ) (Lvl := ℕ) spec3 c V : sProp 𝕄) := by
  unfold Dat.arrays Pipeline.arrBufs
  rw [bigSep_W3, bigSep_eq_bigSepL_of_eq [main_v0, main_arg0, main_arg8, main_arg9, main_v5, main_v6] (by decide) (by decide),
    (arr_whole3 0).set_eq_univ, (arr_whole3 1).set_eq_univ, (arr_whole3 3).set_eq_univ, (arr_whole3 4).set_eq_univ,
    (arr_whole3 5).set_eq_univ, (arr_whole3 6).set_eq_univ]
  exact sep7 (pointsTo_share (PosShare.mem_left_op_right fullShare))

theorem hF1 (c : Dev nD) (w : Fin cfg1.W) : (dat1 (V2 m ρ) c).arrAt w cfg1.N = W3 m ρ c (Proc.devRef .tc (Pipeline.arrRef spec1 w)) := by
  by_cases h : Pipeline.arrRef spec1 w = main_v2
  · obtain rfl := (by decide : ∀ w : Fin cfg1.W, Pipeline.arrRef spec1 w = main_v2 → w = 6) w h
    exact (W3_out m ρ c).symm
  · exact ((dat1 (V2 m ρ) c).arrAt_in w ((by decide : ∀ w : Fin cfg1.W, Pipeline.arrRef spec1 w ≠ main_v2 → (cfg1.win w).isOut = false) w h) _).trans
      ((A_eq1 (V2 m ρ) c w).trans (W3_of_ne m ρ c _ h).symm)
theorem hF3 (c : Dev nD) (w : Fin cfg3.W) : (dat3 (V6 m ρ) c).arrAt w cfg3.N = W7 m ρ c (Proc.devRef .tc (Pipeline.arrRef spec3 w)) := by
  by_cases h : Pipeline.arrRef spec3 w = main_v6
  · obtain rfl := (by decide : ∀ w : Fin cfg3.W, Pipeline.arrRef spec3 w = main_v6 → w = 6) w h
    exact (W7_out m ρ c).symm
  · exact ((dat3 (V6 m ρ) c).arrAt_in w ((by decide : ∀ w : Fin cfg3.W, Pipeline.arrRef spec3 w ≠ main_v6 → (cfg3.win w).isOut = false) w h) _).trans
      ((A_eq3 (V6 m ρ) c w).trans (W7_of_ne m ρ c _ h).symm)

set_option backward.isDefEq.respectTransparency.types false in
/-- A region taking the contents `W` to `W'`. -/
def reg (p : Fin 5) (win : Pipeline.WinFacts₀ (cfgs p).spec) (bp : ∀ w : Fin (cfgs p).W, 0 < ((cfgs p).spec w).block.numel)
    (sw : ∀ (w : Fin (cfgs p).W) (s : Fin ((cfgs p).spec w).nbuf), (((cfgs p).spec w).stage s).IsWhole)
    (hb : ∀ c, BodyObligation (pdats m ρ p c) (defs₀ (F := F)) 𝒱₀ () Set.univ)
    (ow : ∀ c t, (pdats m ρ p c).owed t = 0) (rc : ∀ c, (pdats m ρ p c).recorded 0 = Set.univ)
    (hi : ∀ c, Pipeline.ΦA (cfgs p).spec c ⊢ (pdats m ρ p c).Φ 0)
    (ho : ∀ c, (pdats m ρ p c).Φ (Fin.last (cfgs p).N) ⊢ Pipeline.ΦA (cfgs p).spec c)
    (W W' : Dev nD → Valuation τ sig (Elt F)) (io : ∀ c, InOut m ρ p c W W') :
    Pipeline.RegionSeg (pcfgs (F := F)) adm (pdats m ρ) () defs₀ 𝒱₀ L lv p where
  win := win
  block_pos := bp
  stage_whole := sw
  K := PEmpty
  osem k := k.elim
  ho := Pipeline.OwnSemFacts.none _
  hbody c := (hb c).loose
  hwaits := Pipeline.hwaits_of_owed_zero _ _ _ _ L lv p ow
  pre c := iprop(ucHeld c (W c) ∗ R c)
  post c := iprop(ucHeld c (W' c) ∗ R c)
  X c := iprop(∃ r, prngReg c r)
  Y c := iprop(∃ r, prngReg c r)
  Z c := ucRest p c W
  hentry c := by
    unfold Pipeline.Dat.owesAt Pipeline.owesWithin Pipeline.Dat.bound Pipeline.prefHeld
    rw [Pipeline.ownSems0_none, ow, rc, show (Finset.univ : Finset (Fin 0)) = ∅ from rfl, BI.bigSep_empty]
    iintro ⟨⟨Hub, Hp, HO⟩, -, -⟩
    ihave H := (io c).1 $$ Hub
    icases H with ⟨Ha, Hrest⟩
    icases HO with ⟨%W, HO⟩
    imodintro
    iframe Ha Hp Hrest
    isplitr; · iempintro
    iexists W; isplitr; · ipureintro; exact fun _ _ => Or.inl trivial
    iexact HO
  hin c := by
    refine BIBase.Entails.trans ?_ (hi c)
    unfold Pipeline.ΦA
    iintro ⟨Hp, -, Hr⟩
    iframe Hr Hp
  hout c := by
    rw [Pipeline.ownSems0_none]
    refine (ho c).trans ?_
    unfold Pipeline.ΦA
    iintro ⟨Hr, Hp⟩
    iframe Hr Hp
    iempintro
  hexit c := by
    unfold Pipeline.Dat.owesAt Pipeline.owesWithin
    rw [ow]
    iintro ⟨Ha, HO, HY, Hrest⟩
    imodintro
    isplitl [Ha Hrest]
    · iapply (io c).2; iframe Ha Hrest
    isplitl [HY]; · iexact HY
    icases HO with ⟨%W, -, HO⟩; iexists W; iexact HO

abbrev reg0 := reg m ρ 0 launch0.win.to₀ launch0.block_pos launch0.stage_whole (body_obligation0 (V0 m ρ)) (fun _ _ => rfl) (fun _ => rfl)
  (fun _ => .rfl) (fun _ => .rfl) (W0 m ρ) (W1 m ρ) fun c => inj_io m ρ launch0 c ((pdats m ρ 0 c).share_full fun _ => rfl) _ _
    (fun _ => rfl) (fun w => (W1_arr m ρ c w).symm) (W1_of_ne m ρ c)
abbrev reg1 := reg m ρ 1 winFacts₀1 block_pos1 stage_whole1 (body_obligation1 (V2 m ρ)) (fun _ _ => rfl) (fun _ => rfl)
  (hin1 (V2 m ρ)) (hout1 (V2 m ρ)) (W2 m ρ) (W3 m ρ) fun c => shared_io m ρ 1 winFacts₀1.arr_unscoped c (arrays1 c _) _ _
    (fun _ => rfl) (hF1 m ρ c) fun b hb => W3_of_ne m ρ c b fun e => hb (Finset.mem_image.mpr ⟨6, Finset.mem_univ _, e.symm⟩)
abbrev reg2 := reg m ρ 2 launch2.win.to₀ launch2.block_pos launch2.stage_whole (body_obligation2 (V4 m ρ)) (fun _ _ => rfl) (fun _ => rfl)
  (hin2 (V4 m ρ)) (hout2 (V4 m ρ)) (W4 m ρ) (W5 m ρ) fun c => inj_io m ρ launch2 c ((pdats m ρ 2 c).share_full fun _ => rfl) _ _
    (fun _ => rfl) (fun w => (W5_arr m ρ c w).symm) (W5_of_ne m ρ c)
abbrev reg3 := reg m ρ 3 winFacts₀3 block_pos3 stage_whole3 (body_obligation3 (V6 m ρ)) (fun _ _ => rfl) (fun _ => rfl)
  (hin3 (V6 m ρ)) (hout3 (V6 m ρ)) (W6 m ρ) (W7 m ρ) fun c => shared_io m ρ 3 winFacts₀3.arr_unscoped c (arrays3 c _) _ _
    (fun _ => rfl) (hF3 m ρ c) fun b hb => W7_of_ne m ρ c b fun e => hb (Finset.mem_image.mpr ⟨6, Finset.mem_univ _, e.symm⟩)
abbrev reg4 := reg m ρ 4 launch4.win.to₀ launch4.block_pos launch4.stage_whole (body_obligation4 (V8 m ρ)) (fun _ _ => rfl) (fun _ => rfl)
  (hin4 (V8 m ρ)) (hout4 (V8 m ρ)) (W8 m ρ) (W9 m ρ) fun c => inj_io m ρ launch4 c ((pdats m ρ 4 c).share_full fun _ => rfl) _ _
    (fun _ => rfl) (fun w => (W9_arr m ρ c w).symm) (W9_of_ne m ρ c)

abbrev segs : List (Pipeline.Seg (pcfgs (F := F)) adm (pdats m ρ) () defs₀ 𝒱₀ L lv) :=
  [ .region (reg0 m ρ), .host (hseg hostOps1 hostOps1_sub hostOps1_fresh (W1 m ρ)),
    .region (reg1 m ρ), .host (hseg hostOps2 hostOps2_sub hostOps2_fresh (W3 m ρ)),
    .region (reg2 m ρ), .host (hseg hostOps3 hostOps3_sub hostOps3_fresh (W5 m ρ)),
    .region (reg3 m ρ), .host (hseg hostOps4 hostOps4_sub hostOps4_fresh (W7 m ρ)),
    .region (reg4 m ρ), .host (hseg hostOps5 hostOps5_sub hostOps5_fresh (W9 m ρ)) ]
theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem ((c : Thread nD τ).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(ucHeld c (W0 m ρ c) ∗ R c)) (Tₙ := fun c => iprop(ucHeld c (W10 m ρ c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => BI.sep_assoc'⟩)
    (hinit := by
      refine Pipeline.initEach L lv fun c => ?_
      rw [show unscopedBufs c (fun b => m ((c : Thread nD τ).loc b)) = ucHeld c (W0 m ρ c) from Pipeline.unscopedBufs_held c (W0 m ρ c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold ucHeld StableHlo.held
      imodintro
      iapply (pointsTo_read_all (Pipeline.ucRefs τ sig) (fun b => (((c : Thread nD τ)).1, b)) (W10 m ρ c) s')
      isplitl [Hh] <;> iassumption)
    (hQ := fun s h => h)

theorem arg_read {r : PUnit × MemSt nD τ sig (Elt F)}
    (h : ∀ c : Dev nD, ∀ b ∈ Pipeline.ucRefs τ sig, r.2.mem ((c : Thread nD τ).1, b) = W10 m ρ c b) (c : Dev nD) {b : Ref sig .tc}
    (hb : b ∈ args) : r.2.mem ((c.tc : Thread nD τ).loc b) = m ((c.tc : Thread nD τ).loc b) :=
  (h c _ (mem_uc b ((by decide : ∀ b ∈ args, ¬ (Proc.devRef .tc b : DevRef τ sig).isScoped) b hb))).trans (W10_arg m ρ c hb)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    have g {b : Ref sig .tc} := arg_read m ρ h c (b := b)
    ⟨g (by decide), g (by decide), g (by decide), g (by decide), g (by decide), g (by decide), g (by decide), g (by decide), g (by decide), g (by decide), g (by decide), g (by decide), g (by decide), g (by decide)⟩) (run_all m ρ)

end Cert.KernelIdeal.Hand

end
-- ==== Proof.KI.GcsPay.lean ====
import proofs.«115539_j71236327571877_1_alg».proof.Proof.Gen.KernelIdeal.Skeleton
import proofs.«115539_j71236327571877_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.ValueIdx Idealize.SL.Sem
open Cert.Spec (col proj skip gcs accum)

/-- Into a zero accumulator an M x K by K x N product is, at a row and a column, the sum over the contracted axis. -/
theorem matmul_plain_at {M K N : ℕ} {φ₁ φ₂ : FTy} (a : FVec Ideal ⟨2, ![M, K]⟩ φ₁) (b : FVec Ideal ⟨2, ![K, N]⟩ φ₂)
    (r : Fin M) (c : Fin N) :
    matmul (DotDims.plain M K N) none a b (constant (F := Ideal) ⟨2, ![M, N]⟩ .f32 0x00000000#32) (ix2 r c)
      = ∑ k : Fin K, a (ix2 r k) * b (ix2 k c) := by
  simp only [matmul]
  exact (Ideal.matmul_constant_zero_apply _ _ a b _).trans (Cert.Spec.sum_plain a b r c)

/-- The four steps' payloads are the same functions; the second comes at two widths of the propagated features. -/
theorem pay1_at (r : Fin 2048) (c : Fin 32) : k1_pay1 (F := Ideal) (ix2 r c) = 0 := by
  unfold k1_pay1
  exact (congrFun (shapeCast_self _ _) (ix2 r c)).trans Ideal.ofBits_zero_f32

theorem pay2_at (xb : Vec Ideal S2048x64 .f32) (w1 : Vec Ideal S64x32 .f32) (fl : Vec Ideal S2048x2048 .bf16)
    (acc : Vec Ideal S2048x32 .f32) (r : Fin 2048) (c : Fin 32) :
    k1_pay2 (F := Ideal) xb w1 fl acc (ix2 r c)
      = acc (ix2 r c) + ∑ j : Fin 2048, fl (ix2 r j) * ∑ d : Fin 64, xb (ix2 j d) * w1 (ix2 d c) := by
  unfold k1_pay2
  refine (congrFun (shapeCast_self _ _) (ix2 r c)).trans (congrArg (acc (ix2 r c) + ·) ?_)
  refine (matmul_plain_at (M := 2048) (K := 2048) (N := 32) _ _ r c).trans (Finset.sum_congr rfl fun j _ => ?_)
  exact congr (congrArg _ (congrFun (shapeCast_self fl _) (ix2 r j))) (matmul_plain_at (M := 2048) (K := 64) (N := 32) _ _ j c)

theorem pay2n_at (xb : Vec Ideal S2048x32 .f32) (w1 : Vec Ideal S32x32 .f32) (fl : Vec Ideal S2048x2048 .bf16)
    (acc : Vec Ideal S2048x32 .f32) (r : Fin 2048) (c : Fin 32) :
    k2_pay2 (F := Ideal) xb w1 fl acc (ix2 r c)
      = acc (ix2 r c) + ∑ j : Fin 2048, fl (ix2 r j) * ∑ d : Fin 32, xb (ix2 j d) * w1 (ix2 d c) := by
  unfold k2_pay2
  refine (congrFun (shapeCast_self _ _) (ix2 r c)).trans (congrArg (acc (ix2 r c) + ·) ?_)
  refine (matmul_plain_at (M := 2048) (K := 2048) (N := 32) _ _ r c).trans (Finset.sum_congr rfl fun j _ => ?_)
  refine congr (congrArg _ (congrFun (shapeCast_self fl _) (ix2 r j))) ((matmul_plain_at (M := 2048) (K := 32) (N := 32) _ _ j c).trans ?_)
  exact Finset.sum_congr rfl fun d _ => congrArg (· * w1 (ix2 d c)) (congrFun (shapeCast_self xb _) (ix2 j d))

theorem pay3_at (x : Vec Ideal S2048x64 .f32) (w2 : Vec Ideal S64x32 .f32) (acc : Vec Ideal S2048x32 .f32)
    (b : Vec Ideal S1x32 .f32) (r : Fin 2048) (c : Fin 32) :
    k1_pay3 (F := Ideal) x w2 acc b (ix2 r c)
      = max ((acc (ix2 r c) + ∑ f : Fin 64, x (ix2 r f) * w2 (ix2 f c)) + b (ix2 0 c)) 0 := by
  unfold k1_pay3
  refine congr (congrArg max (congr (congrArg HAdd.hAdd (congrArg (acc (ix2 r c) + ·) ?_)) ?_)) Ideal.ofBits_zero_f32
  · exact matmul_plain_at (M := 2048) (K := 64) (N := 32) _ _ r c
  · exact (broadcastTo_1b_ab_apply _ _ r c).trans (congrFun (shapeCast_self b _) (ix2 0 c))

section Step

variable {D : ℕ} (L : FVec Ideal ⟨2, ![16384, 16384]⟩ .f32) (xb : FVec Ideal ⟨2, ![16384, D]⟩ .f32)
  (w1 : FVec Ideal ⟨2, ![D, 32]⟩ .f32) (x : FVec Ideal ⟨2, ![16384, 64]⟩ .f32) (w2 : FVec Ideal ⟨2, ![64, 32]⟩ .f32)

/-- Column block `kb`'s share of row `ρ`, column `q` of the filter applied to the projected features. -/
def part (ρ : Fin 16384) (q : Fin 32) (kb : Fin 8) : EReal :=
  ∑ j : Fin 2048, L (ix2 ρ (col kb j)) * proj xb w1 (col kb j) q

def partN (ρ : Fin 16384) (q : Fin 32) (k : ℕ) : EReal := part L xb w1 ρ q ⟨k % 8, Nat.mod_lt _ (by decide)⟩

theorem accum_partN (ρ : Fin 16384) (q : Fin 32) :
    accum (partN L xb w1 ρ q) 7 = ∑ k : Fin 16384, L (ix2 ρ k) * proj xb w1 k q := by
  rw [Cert.Spec.accum_seven, Cert.Spec.sum_blocks]
  exact Finset.sum_congr rfl fun kb _ => congrArg (part L xb w1 ρ q) (Fin.ext (Nat.mod_eq_of_lt kb.isLt))

variable {L xb w1 x w2} {N : ℕ} (hN : N = 64)

/-- Point `t` of the 8 x 8 grid is row block `t / 8`, column block `t % 8`. -/
def rowBlk (t : Fin N) : Fin 8 := ⟨t.val / 8, by have := t.isLt; omega⟩
def colBlk (t : Fin N) : Fin 8 := ⟨t.val % 8, Nat.mod_lt _ (by decide)⟩

variable {fb : Fin N → FVec Ideal ⟨2, ![2048, 2048]⟩ .f32} {pb : Fin N → FVec Ideal ⟨2, ![2048, D]⟩ .f32}
  {sb : Fin N → FVec Ideal ⟨2, ![2048, 64]⟩ .f32} {wb1 : Fin N → FVec Ideal ⟨2, ![D, 32]⟩ .f32}
  {wb2 : Fin N → FVec Ideal ⟨2, ![64, 32]⟩ .f32} {bb : Fin N → FVec Ideal ⟨2, ![1, 32]⟩ .f32}
  {bias : FVec Ideal ⟨2, ![1, 32]⟩ .f32}
  (hfb : ∀ t a b, fb t (ix2 a b) = L (ix2 (col (rowBlk hN t) a) (col (colBlk t) b)))
  (hpb : ∀ t a d, pb t (ix2 a d) = xb (ix2 (col (colBlk t) a) d))
  (hsb : ∀ t a d, sb t (ix2 a d) = x (ix2 (col (rowBlk hN t) a) d))
  (hw1 : ∀ t d e, wb1 t (ix2 d e) = w1 (ix2 d e)) (hw2 : ∀ t d e, wb2 t (ix2 d e) = w2 (ix2 d e))
  (hbb : ∀ t d e, bb t (ix2 d e) = bias (ix2 d e))
  {pay2 : FVec Ideal ⟨2, ![2048, D]⟩ .f32 → FVec Ideal ⟨2, ![D, 32]⟩ .f32 → FVec Ideal ⟨2, ![2048, 2048]⟩ .f32
    → Vec Ideal S2048x32 .f32 → Vec Ideal S2048x32 .f32}
  {pay3 : FVec Ideal ⟨2, ![2048, 64]⟩ .f32 → FVec Ideal ⟨2, ![64, 32]⟩ .f32 → Vec Ideal S2048x32 .f32
    → FVec Ideal ⟨2, ![1, 32]⟩ .f32 → Vec Ideal S2048x32 .f32}
  {z : Vec Ideal S2048x32 .f32} (hz : ∀ r q, z (ix2 r q) = 0)
  (h2 : ∀ p w f acc r q, pay2 p w f acc (ix2 r q)
    = acc (ix2 r q) + ∑ j : Fin 2048, f (ix2 r j) * ∑ d : Fin D, p (ix2 j d) * w (ix2 d q))
  (h3 : ∀ s w acc v r q, pay3 s w acc v (ix2 r q)
    = max ((acc (ix2 r q) + ∑ f : Fin 64, s (ix2 r f) * w (ix2 f q)) + v (ix2 0 q)) 0)
  (S O : (n : ℕ) → n < N → Vec Ideal S2048x32 .f32)
  (hreset : ∀ t : Fin N, t.val % 8 = 0 → S t.val t.isLt = pay2 (pb t) (wb1 t) (fb t) z)
  (hstep : ∀ t : Fin N, ¬t.val % 8 = 0 →
    S t.val t.isLt = pay2 (pb t) (wb1 t) (fb t) (S (t.val - 1) (Nat.lt_of_le_of_lt (Nat.sub_le _ _) t.isLt)))
  (hstore : ∀ t : Fin N, t.val % 8 = 7 → O t.val t.isLt = pay3 (sb t) (wb2 t) (S t.val t.isLt) (bb t))

include hfb hpb hw1 in
theorem step_at (t : Fin N) (r : Fin 2048) (q : Fin 32) :
    (∑ j : Fin 2048, fb t (ix2 r j) * ∑ d : Fin D, pb t (ix2 j d) * wb1 t (ix2 d q))
      = part L xb w1 (col (rowBlk hN t) r) q (colBlk t) := by
  unfold part proj
  simp only [hfb, hpb, hw1]

include hz h2 hfb hpb hw1 hreset hstep in
/-- Reset to the first share at k = 0 and given the next share elsewhere, the accumulator holds shares 0 .. k in order. -/
theorem fold_at (i : Fin 8) (r : Fin 2048) (q : Fin 32) :
    ∀ (k : ℕ), k < 8 → ∀ (n : ℕ) (h : n < N), n = 8 * i.val + k →
      S n h (ix2 r q) = accum (partN L xb w1 (col i r) q) k
  | 0, _, n, h, hn => by
    have e := hreset ⟨n, h⟩ (by show n % 8 = 0; omega)
    dsimp only at e
    have ei : rowBlk hN ⟨n, h⟩ = i := Fin.ext (by show n / 8 = i.val; omega)
    have ek : colBlk ⟨n, h⟩ = ⟨0 % 8, Nat.mod_lt _ (by decide)⟩ := Fin.ext (by show n % 8 = 0 % 8; omega)
    rw [e, h2, step_at hN hfb hpb hw1, hz, ei, ek]
    rfl
  | k + 1, hk, n, h, hn => by
    have e := hstep ⟨n, h⟩ (by show ¬n % 8 = 0; omega)
    dsimp only at e
    have ei : rowBlk hN ⟨n, h⟩ = i := Fin.ext (by show n / 8 = i.val; omega)
    have ek : colBlk ⟨n, h⟩ = ⟨(k + 1) % 8, Nat.mod_lt _ (by decide)⟩ := Fin.ext (by show n % 8 = (k + 1) % 8; omega)
    rw [e, h2, step_at hN hfb hpb hw1, fold_at i r q k (by omega) (n - 1) _ (by omega), ei, ek]
    rfl

include hz h2 h3 hfb hpb hsb hw1 hw2 hbb hreset hstep hstore in
/-- Where k = 7 the block stored from that accumulator is the step's value on row block i. -/
theorem stored_at (t : Fin N) (h7 : t.val % 8 = 7) (r : Fin 2048) (q : Fin 32) :
    O t.val t.isLt (ix2 r q)
      = gcs L xb x w1 w2 (fun j => bias (ix2 0 (j 0))) (ix2 (col (rowBlk hN t) r) q) := by
  rw [hstore t h7, h3, hbb, fold_at hN hfb hpb hw1 hz h2 S hreset hstep (rowBlk hN t) r q 7
    (by decide) t.val t.isLt (by show t.val = 8 * (t.val / 8) + 7; omega), accum_partN]
  unfold gcs Cert.Spec.gcsAt skip
  simp only [hsb, hw2]

end Step

end Cert.KernelIdeal.Val

end
-- ==== Proof.KI.Gcs1Value.lean ====
import proofs.«115539_j71236327571877_1_alg».proof.Proof.KI.Gcs1
import proofs.«115539_j71236327571877_1_alg».proof.Proof.KI.GcsPay
import Idealize.ShloMosaic.Lib.Tactic
import Idealize.ShloMosaic.Lib.QrPanel.Panel

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.QrPanel.Panel (zeros2)
open Idealize.ShloMosaic.Pipeline (Dat Cfg Window)
open Cert.Spec (col gcs)

section Pieces

variable {F : FTy → Type} [FloatOps F]

/-- Each write covers the whole block and each read is of a whole block, so what a point leaves is its payload. -/
theorem sout1_A_0_eq :
    sout1_A_0 (F := F) c i arg2 harg2 arg3 harg3 arg4 harg4 arg5 harg5 arg6 harg6 arg7 harg7 arg8 harg8 arg9 harg9 hc0 hc1 x0 x1 x2 x3 x4 x5 = k1_pay2 x1 x3 x0 (k1_pay1 (F := F)) := by
  unfold sout1_A_0
  rw [View.read_writes_eq_canon _ _ _ fun y => scover1_A_0 (y := y) ..]
  unfold kernelRun1_A
  dsimp only
  sl_unfold_words
  rw [View.canon_cons_unit_zero (S := S2048x32) zeros2, View.readCov_unit_zero (S := S2048x32) _ zeros2]
  simp only [View.readAt_eq_ld, harg2.read_unread, harg3.read_unread, harg5.read_unread,
    View.ld_unit_zero (S := S2048x2048) zeros2, View.ld_unit_zero (S := S2048x64) zeros2, View.ld_unit_zero (S := S64x32) zeros2]

theorem sout1_B_0_eq :
    sout1_B_0 (F := F) c i arg2 harg2 arg3 harg3 arg4 harg4 arg5 harg5 arg6 harg6 arg7 harg7 arg8 harg8 arg9 harg9 hc0 hc1 x0 x1 x2 x3 x4 x5 xs0 = k1_pay2 x1 x3 x0 xs0 := by
  unfold sout1_B_0
  rw [View.read_writes_eq_canon _ _ _ fun y => scover1_B_0 (y := y) ..]
  unfold kernelRun1_B
  dsimp only
  sl_unfold_words
  rw [View.canon_unit_zero zeros2]
  simp only [View.readAt_eq_ld, harg2.read_unread, harg3.read_unread, harg5.read_unread, harg9.read_unread,
    View.ld_unit_zero (S := S2048x2048) zeros2, View.ld_unit_zero (S := S2048x64) zeros2, View.ld_unit_zero (S := S64x32) zeros2, View.ld_unit_zero (S := S2048x32) zeros2]

theorem sout1_C_0_eq :
    sout1_C_0 (F := F) c i arg2 harg2 arg3 harg3 arg4 harg4 arg5 harg5 arg6 harg6 arg7 harg7 arg8 harg8 arg9 harg9 hc0 hc1 x0 x1 x2 x3 x4 x5 xs0 = k1_pay2 x1 x3 x0 xs0 := by
  unfold sout1_C_0
  rw [View.read_writes_eq_canon _ _ _ fun y => scover1_C_0 (y := y) ..]
  unfold kernelRun1_C
  dsimp only
  sl_unfold_words
  rw [View.canon_unit_zero zeros2]
  simp only [View.readAt_eq_ld, harg2.read_unread, harg3.read_unread, harg5.read_unread, harg9.read_unread,
    View.ld_unit_zero (S := S2048x2048) zeros2, View.ld_unit_zero (S := S2048x64) zeros2, View.ld_unit_zero (S := S64x32) zeros2, View.ld_unit_zero (S := S2048x32) zeros2]

theorem out1_C_6_eq :
    out1_C_6 (F := F) c i arg2 harg2 arg3 harg3 arg4 harg4 arg5 harg5 arg6 harg6 arg7 harg7 arg8 harg8 arg9 harg9 hc0 hc1 x0 x1 x2 x3 x4 x5 xs0 = k1_pay3 x2 x4 (k1_pay2 x1 x3 x0 xs0) x5 := by
  unfold out1_C_6
  rw [View.read_writes_eq_canon _ _ _ fun y => cover1_C_6 (y := y) ..]
  unfold kernelRun1_C
  dsimp only
  sl_unfold_words
  rw [View.canon_unit_zero zeros2]
  simp only [View.readAt_eq_ld, harg2.read_unread, harg3.read_unread, harg4.read_unread, harg5.read_unread,
    harg6.read_unread, harg7.read_unread, harg9.read_unread, View.readCov_unit_zero (S := S2048x32) _ zeros2,
    View.ld_unit_zero (S := S2048x2048) zeros2, View.ld_unit_zero (S := S2048x64) zeros2, View.ld_unit_zero (S := S64x32) zeros2, View.ld_unit_zero (S := S2048x32) zeros2, View.ld_unit_zero (S := S1x32) zeros2]

end Pieces

/-- The printed index maps, decided over the 64 points. -/
theorem idx_facts1 : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0
    ∧ (∀ a, win1_3.index t a = 0) ∧ (∀ a, win1_4.index t a = 0) ∧ (∀ a, win1_5.index t a = 0)
    ∧ win1_6.index t (0 : Fin 2) = t.val / 8 ∧ win1_6.index t (1 : Fin 2) = 0 :=
  (by decide +kernel : ∀ t : Fin grid1.N, _)

variable (V : (c : Dev nD) → (b : Ref sig .tc) → Buf (Elt Ideal) ((c : Thread nD τ).loc b)) (c : Dev nD)

abbrev filt1 : Vec Ideal S16384x16384 .bf16 := V c main_v0
abbrev xbar1 : Vec Ideal S16384x64 .f32 := V c main_arg0
abbrev feat1 : Vec Ideal S16384x64 .f32 := V c main_arg0
abbrev wproj1 : Vec Ideal S64x32 .f32 := V c main_arg2
abbrev wskip1 : Vec Ideal S64x32 .f32 := V c main_arg3
abbrev bias1 : Vec Ideal S1x32 .f32 := V c main_v1

/-- At point (i, k): block (i, k) of the filter, row blocks k and i of the two feature arrays, weights and bias whole. -/
theorem fblk1_at (t : Fin cfg1.N) (a b : Fin 2048) :
    iblk1 V c 0 t (ix2 a b) = filt1 V c (ix2 (col (rowBlk N_1 t) a) (col (colBlk t) b)) := by
  obtain ⟨ha, hb, -⟩ := idx_facts1 t
  refine congrArg (filt1 V c) (funext fun d => Fin.ext ?_)
  match d with
  | ⟨0, _⟩ => show win1_0.index t (0 : Fin 2) * 2048 + 1 * a.val = 2048 * (t.val / 8) + a.val; omega
  | ⟨1, _⟩ => show win1_0.index t (1 : Fin 2) * 2048 + 1 * b.val = 2048 * (t.val % 8) + b.val; omega

theorem pblk1_at (t : Fin cfg1.N) (a : Fin 2048) (d : Fin 64) :
    iblk1 V c 1 t (ix2 a d) = xbar1 V c (ix2 (col (colBlk t) a) d) := by
  obtain ⟨-, -, ha, hb, -⟩ := idx_facts1 t
  refine congrArg (xbar1 V c) (funext fun z => Fin.ext ?_)
  match z with
  | ⟨0, _⟩ => show win1_1.index t (0 : Fin 2) * 2048 + 1 * a.val = 2048 * (t.val % 8) + a.val; omega
  | ⟨1, _⟩ => show win1_1.index t (1 : Fin 2) * 64 + 1 * d.val = d.val; omega

theorem sblk1_at (t : Fin cfg1.N) (a : Fin 2048) (d : Fin 64) :
    iblk1 V c 2 t (ix2 a d) = feat1 V c (ix2 (col (rowBlk N_1 t) a) d) := by
  obtain ⟨-, -, -, -, ha, hb, -⟩ := idx_facts1 t
  refine congrArg (feat1 V c) (funext fun z => Fin.ext ?_)
  match z with
  | ⟨0, _⟩ => show win1_2.index t (0 : Fin 2) * 2048 + 1 * a.val = 2048 * (t.val / 8) + a.val; omega
  | ⟨1, _⟩ => show win1_2.index t (1 : Fin 2) * 64 + 1 * d.val = d.val; omega

theorem w1blk1_at (t : Fin cfg1.N) (d : Fin 64) (e : Fin 32) : iblk1 V c 3 t (ix2 d e) = wproj1 V c (ix2 d e) :=
  congrArg (wproj1 V c) (funext fun z => Fin.ext (win1_3.rect_emb_val_of_index_zero t z ((idx_facts1 t).2.2.2.2.2.2.1 z) _))

theorem w2blk1_at (t : Fin cfg1.N) (d : Fin 64) (e : Fin 32) : iblk1 V c 4 t (ix2 d e) = wskip1 V c (ix2 d e) :=
  congrArg (wskip1 V c) (funext fun z => Fin.ext (win1_4.rect_emb_val_of_index_zero t z ((idx_facts1 t).2.2.2.2.2.2.2.1 z) _))

theorem bblk1_at (t : Fin cfg1.N) (d : Fin 1) (e : Fin 32) : iblk1 V c 5 t (ix2 d e) = bias1 V c (ix2 d e) :=
  congrArg (bias1 V c) (funext fun z => Fin.ext (win1_5.rect_emb_val_of_index_zero t z ((idx_facts1 t).2.2.2.2.2.2.2.2.1 z) _))

/-- The step's value on the arrays the region finds. -/
abbrev result1 : FVec Ideal ⟨2, ![16384, 32]⟩ .f32 :=
  gcs (filt1 V c) (xbar1 V c) (feat1 V c) (wproj1 V c) (wskip1 V c) (fun j => bias1 V c (ix2 0 (j 0)))

/-- The accumulator and the output block after each kind of point. -/
theorem acc1_reset (t : Fin cfg1.N) (h0 : t.val % 8 = 0) :
    (outsAt1 V c t.val t.isLt).2
      = k1_pay2 (F := Ideal) (iblk1 V c 1 t) (iblk1 V c 3 t) (iblk1 V c 0 t) (k1_pay1 (F := Ideal)) := by
  rw [outsAt1_A V c t h0 (by omega)]
  unfold pairA1
  dsimp only
  exact sout1_A_0_eq (F := Ideal)

theorem acc1_step (t : Fin cfg1.N) (h0 : ¬t.val % 8 = 0) :
    (outsAt1 V c t.val t.isLt).2
      = k1_pay2 (F := Ideal) (iblk1 V c 1 t) (iblk1 V c 3 t) (iblk1 V c 0 t) (outsAt1 V c (t.val - 1) (Nat.lt_of_le_of_lt (Nat.sub_le _ _) t.isLt)).2 := by
  by_cases h7 : t.val % 8 = 7
  · rw [outsAt1_C V c t h0 h7]
    unfold pairC1
    dsimp only
    exact sout1_C_0_eq (F := Ideal)
  · rw [outsAt1_B V c t h0 h7]
    unfold pairB1
    dsimp only
    exact sout1_B_0_eq (F := Ideal)

theorem out1_store (t : Fin cfg1.N) (h7 : t.val % 8 = 7) :
    (outsAt1 V c t.val t.isLt).1
      = k1_pay3 (F := Ideal) (iblk1 V c 2 t) (iblk1 V c 4 t) (outsAt1 V c t.val t.isLt).2 (iblk1 V c 5 t) := by
  rw [outsAt1_C V c t (by omega) h7]
  unfold pairC1
  dsimp only
  rw [sout1_C_0_eq (F := Ideal)]
  exact out1_C_6_eq (F := Ideal)

/-- The block stored at point (i, 7) is the step's value on rows 2048 i .. 2048 i + 2047. -/
theorem out1_at (t : Fin cfg1.N) (h7 : t.val % 8 = 7) (r : Fin 2048) (q : Fin 32) :
    (outsAt1 V c t.val t.isLt).1 (ix2 r q) = result1 V c (ix2 (col (rowBlk N_1 t) r) q) :=
  stored_at N_1 (fblk1_at V c) (pblk1_at V c) (sblk1_at V c) (w1blk1_at V c) (w2blk1_at V c) (bblk1_at V c) pay1_at pay2_at
    pay3_at (fun n h => (outsAt1 V c n h).2) (fun n h => (outsAt1 V c n h).1) (acc1_reset V c) (acc1_step V c)
    (out1_store V c) t h7 r q

/-- What region 1 leaves in its output array: row ρ lies in the block stored at point 8 (ρ / 2048) + 7. -/
theorem gcs1_arr : (dat1 (F := Ideal) V c).arrAt 6 cfg1.N = result1 V c := by
  refine (dat1 (F := Ideal) V c).arrAt_eq_of_cover 6 _ (fun t hf => funext fun j => ?_) fun i => ?_
  · obtain ⟨-, -, -, -, -, -, -, -, -, q0, q1⟩ := idx_facts1 t
    obtain ⟨r, q, rfl⟩ : ∃ (r : Fin 2048) (q : Fin 32), j = ix2 r q := ⟨j 0, j 1, eq_ix2 j⟩
    refine (out1_at V c t ((flush1_6 t).mp hf) r q).trans (congrArg (result1 V c) (funext fun a => Fin.ext ?_))
    match a with
    | ⟨0, _⟩ => show 2048 * (t.val / 8) + r.val = win1_6.index t (0 : Fin 2) * 2048 + 1 * r.val; omega
    | ⟨1, _⟩ => show q.val = win1_6.index t (1 : Fin 2) * 32 + 1 * q.val; omega
  · have hN : cfg1.N = 64 := N_1
    have hi0 : (i 0).val < 16384 := (i 0).isLt
    have hi1 : (i 1).val < 32 := (i 1).isLt
    obtain ⟨t, ht⟩ : ∃ t : Fin cfg1.N, t.val = 8 * ((i 0).val / 2048) + 7 := ⟨⟨8 * ((i 0).val / 2048) + 7, by omega⟩, rfl⟩
    obtain ⟨-, -, -, -, -, -, -, -, -, q0, q1⟩ := idx_facts1 t
    refine ⟨t, (flush1_6 t).mpr (by omega), ?_⟩
    show i ∈ ((View.whole main_v2).slice (win1_6.rect t)).set
    rw [View.set_slice_whole, Rect.mem_set_unit]
    intro a
    match a with
    | ⟨0, _⟩ =>
      show win1_6.index t (0 : Fin 2) * 2048 ≤ (i 0).val ∧ (i 0).val < win1_6.index t (0 : Fin 2) * 2048 + 2048
      omega
    | ⟨1, _⟩ =>
      show win1_6.index t (1 : Fin 2) * 32 ≤ (i 1).val ∧ (i 1).val < win1_6.index t (1 : Fin 2) * 32 + 32
      omega

end Cert.KernelIdeal.Val

end
-- ==== Proof.KI.Gcs2Value.lean ====
import proofs.«115539_j71236327571877_1_alg».proof.Proof.KI.Gcs2
import proofs.«115539_j71236327571877_1_alg».proof.Proof.KI.GcsPay
import Idealize.ShloMosaic.Lib.Tactic
import Idealize.ShloMosaic.Lib.QrPanel.Panel

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.QrPanel.Panel (zeros2)
open Idealize.ShloMosaic.Pipeline (Dat Cfg Window)
open Cert.Spec (col gcs)

section Pieces

variable {F : FTy → Type} [FloatOps F]

/-- Each write covers the whole block and each read is of a whole block, so what a point leaves is its payload. -/
theorem sout2_A_0_eq :
    sout2_A_0 (F := F) c i arg2 harg2 arg3 harg3 arg4 harg4 arg5 harg5 arg6 harg6 arg7 harg7 arg8 harg8 arg9 harg9 hc0 hc1 x0 x1 x2 x3 x4 x5 = k2_pay2 x1 x3 x0 (k2_pay1 (F := F)) := by
  unfold sout2_A_0
  rw [View.read_writes_eq_canon _ _ _ fun y => scover2_A_0 (y := y) ..]
  unfold kernelRun2_A
  dsimp only
  sl_unfold_words
  rw [View.canon_cons_unit_zero (S := S2048x32) zeros2, View.readCov_unit_zero (S := S2048x32) _ zeros2]
  simp only [View.readAt_eq_ld, harg2.read_unread, harg3.read_unread, harg5.read_unread,
    View.ld_unit_zero (S := S2048x2048) zeros2, View.ld_unit_zero (S := S2048x64) zeros2, View.ld_unit_zero (S := S2048x32) zeros2, View.ld_unit_zero (S := S64x32) zeros2, View.ld_unit_zero (S := S32x32) zeros2]

theorem sout2_B_0_eq :
    sout2_B_0 (F := F) c i arg2 harg2 arg3 harg3 arg4 harg4 arg5 harg5 arg6 harg6 arg7 harg7 arg8 harg8 arg9 harg9 hc0 hc1 x0 x1 x2 x3 x4 x5 xs0 = k2_pay2 x1 x3 x0 xs0 := by
  unfold sout2_B_0
  rw [View.read_writes_eq_canon _ _ _ fun y => scover2_B_0 (y := y) ..]
  unfold kernelRun2_B
  dsimp only
  sl_unfold_words
  rw [View.canon_unit_zero zeros2]
  simp only [View.readAt_eq_ld, harg2.read_unread, harg3.read_unread, harg5.read_unread, harg9.read_unread,
    View.ld_unit_zero (S := S2048x2048) zeros2, View.ld_unit_zero (S := S2048x64) zeros2, View.ld_unit_zero (S := S2048x32) zeros2, View.ld_unit_zero (S := S64x32) zeros2, View.ld_unit_zero (S := S32x32) zeros2, View.ld_unit_zero (S := S2048x32) zeros2]

theorem sout2_C_0_eq :
    sout2_C_0 (F := F) c i arg2 harg2 arg3 harg3 arg4 harg4 arg5 harg5 arg6 harg6 arg7 harg7 arg8 harg8 arg9 harg9 hc0 hc1 x0 x1 x2 x3 x4 x5 xs0 = k2_pay2 x1 x3 x0 xs0 := by
  unfold sout2_C_0
  rw [View.read_writes_eq_canon _ _ _ fun y => scover2_C_0 (y := y) ..]
  unfold kernelRun2_C
  dsimp only
  sl_unfold_words
  rw [View.canon_unit_zero zeros2]
  simp only [View.readAt_eq_ld, harg2.read_unread, harg3.read_unread, harg5.read_unread, harg9.read_unread,
    View.ld_unit_zero (S := S2048x2048) zeros2, View.ld_unit_zero (S := S2048x64) zeros2, View.ld_unit_zero (S := S2048x32) zeros2, View.ld_unit_zero (S := S64x32) zeros2, View.ld_unit_zero (S := S32x32) zeros2, View.ld_unit_zero (S := S2048x32) zeros2]

theorem out2_C_6_eq :
    out2_C_6 (F := F) c i arg2 harg2 arg3 harg3 arg4 harg4 arg5 harg5 arg6 harg6 arg7 harg7 arg8 harg8 arg9 harg9 hc0 hc1 x0 x1 x2 x3 x4 x5 xs0 = k2_pay3 x2 x4 (k2_pay2 x1 x3 x0 xs0) x5 := by
  unfold out2_C_6
  rw [View.read_writes_eq_canon _ _ _ fun y => cover2_C_6 (y := y) ..]
  unfold kernelRun2_C
  dsimp only
  sl_unfold_words
  rw [View.canon_unit_zero zeros2]
  simp only [View.readAt_eq_ld, harg2.read_unread, harg3.read_unread, harg4.read_unread, harg5.read_unread,
    harg6.read_unread, harg7.read_unread, harg9.read_unread, View.readCov_unit_zero (S := S2048x32) _ zeros2,
    View.ld_unit_zero (S := S2048x2048) zeros2, View.ld_unit_zero (S := S2048x64) zeros2, View.ld_unit_zero (S := S2048x32) zeros2, View.ld_unit_zero (S := S64x32) zeros2, View.ld_unit_zero (S := S32x32) zeros2, View.ld_unit_zero (S := S2048x32) zeros2, View.ld_unit_zero (S := S1x32) zeros2]

end Pieces

/-- The printed index maps, decided over the 64 points. -/
theorem idx_facts2 : ∀ t : Fin cfg2.N,
    win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val / 8 ∧ win2_2.index t (1 : Fin 2) = 0
    ∧ (∀ a, win2_3.index t a = 0) ∧ (∀ a, win2_4.index t a = 0) ∧ (∀ a, win2_5.index t a = 0)
    ∧ win2_6.index t (0 : Fin 2) = t.val / 8 ∧ win2_6.index t (1 : Fin 2) = 0 :=
  (by decide +kernel : ∀ t : Fin grid2.N, _)

variable (V : (c : Dev nD) → (b : Ref sig .tc) → Buf (Elt Ideal) ((c : Thread nD τ).loc b)) (c : Dev nD)

abbrev filt2 : Vec Ideal S16384x16384 .bf16 := V c main_v0
abbrev xbar2 : Vec Ideal S16384x32 .f32 := V c main_v2
abbrev feat2 : Vec Ideal S16384x64 .f32 := V c main_arg0
abbrev wproj2 : Vec Ideal S32x32 .f32 := V c main_arg5
abbrev wskip2 : Vec Ideal S64x32 .f32 := V c main_arg6
abbrev bias2 : Vec Ideal S1x32 .f32 := V c main_v3

/-- At point (i, k): block (i, k) of the filter, row blocks k and i of the two feature arrays, weights and bias whole. -/
theorem fblk2_at (t : Fin cfg2.N) (a b : Fin 2048) :
    iblk2 V c 0 t (ix2 a b) = filt2 V c (ix2 (col (rowBlk N_2 t) a) (col (colBlk t) b)) := by
  obtain ⟨ha, hb, -⟩ := idx_facts2 t
  refine congrArg (filt2 V c) (funext fun d => Fin.ext ?_)
  match d with
  | ⟨0, _⟩ => show win2_0.index t (0 : Fin 2) * 2048 + 1 * a.val = 2048 * (t.val / 8) + a.val; omega
  | ⟨1, _⟩ => show win2_0.index t (1 : Fin 2) * 2048 + 1 * b.val = 2048 * (t.val % 8) + b.val; omega

theorem pblk2_at (t : Fin cfg2.N) (a : Fin 2048) (d : Fin 32) :
    iblk2 V c 1 t (ix2 a d) = xbar2 V c (ix2 (col (colBlk t) a) d) := by
  obtain ⟨-, -, ha, hb, -⟩ := idx_facts2 t
  refine congrArg (xbar2 V c) (funext fun z => Fin.ext ?_)
  match z with
  | ⟨0, _⟩ => show win2_1.index t (0 : Fin 2) * 2048 + 1 * a.val = 2048 * (t.val % 8) + a.val; omega
  | ⟨1, _⟩ => show win2_1.index t (1 : Fin 2) * 32 + 1 * d.val = d.val; omega

theorem sblk2_at (t : Fin cfg2.N) (a : Fin 2048) (d : Fin 64) :
    iblk2 V c 2 t (ix2 a d) = feat2 V c (ix2 (col (rowBlk N_2 t) a) d) := by
  obtain ⟨-, -, -, -, ha, hb, -⟩ := idx_facts2 t
  refine congrArg (feat2 V c) (funext fun z => Fin.ext ?_)
  match z with
  | ⟨0, _⟩ => show win2_2.index t (0 : Fin 2) * 2048 + 1 * a.val = 2048 * (t.val / 8) + a.val; omega
  | ⟨1, _⟩ => show win2_2.index t (1 : Fin 2) * 64 + 1 * d.val = d.val; omega

theorem w1blk2_at (t : Fin cfg2.N) (d : Fin 32) (e : Fin 32) : iblk2 V c 3 t (ix2 d e) = wproj2 V c (ix2 d e) :=
  congrArg (wproj2 V c) (funext fun z => Fin.ext (win2_3.rect_emb_val_of_index_zero t z ((idx_facts2 t).2.2.2.2.2.2.1 z) _))

theorem w2blk2_at (t : Fin cfg2.N) (d : Fin 64) (e : Fin 32) : iblk2 V c 4 t (ix2 d e) = wskip2 V c (ix2 d e) :=
  congrArg (wskip2 V c) (funext fun z => Fin.ext (win2_4.rect_emb_val_of_index_zero t z ((idx_facts2 t).2.2.2.2.2.2.2.1 z) _))

theorem bblk2_at (t : Fin cfg2.N) (d : Fin 1) (e : Fin 32) : iblk2 V c 5 t (ix2 d e) = bias2 V c (ix2 d e) :=
  congrArg (bias2 V c) (funext fun z => Fin.ext (win2_5.rect_emb_val_of_index_zero t z ((idx_facts2 t).2.2.2.2.2.2.2.2.1 z) _))

/-- The step's value on the arrays the region finds. -/
abbrev result2 : FVec Ideal ⟨2, ![16384, 32]⟩ .f32 :=
  gcs (filt2 V c) (xbar2 V c) (feat2 V c) (wproj2 V c) (wskip2 V c) (fun j => bias2 V c (ix2 0 (j 0)))

/-- The accumulator and the output block after each kind of point. -/
theorem acc2_reset (t : Fin cfg2.N) (h0 : t.val % 8 = 0) :
    (outsAt2 V c t.val t.isLt).2
      = k2_pay2 (F := Ideal) (iblk2 V c 1 t) (iblk2 V c 3 t) (iblk2 V c 0 t) (k2_pay1 (F := Ideal)) := by
  rw [outsAt2_A V c t h0 (by omega)]
  unfold pairA2
  dsimp only
  exact sout2_A_0_eq (F := Ideal)

theorem acc2_step (t : Fin cfg2.N) (h0 : ¬t.val % 8 = 0) :
    (outsAt2 V c t.val t.isLt).2
      = k2_pay2 (F := Ideal) (iblk2 V c 1 t) (iblk2 V c 3 t) (iblk2 V c 0 t) (outsAt2 V c (t.val - 1) (Nat.lt_of_le_of_lt (Nat.sub_le _ _) t.isLt)).2 := by
  by_cases h7 : t.val % 8 = 7
  · rw [outsAt2_C V c t h0 h7]
    unfold pairC2
    dsimp only
    exact sout2_C_0_eq (F := Ideal)
  · rw [outsAt2_B V c t h0 h7]
    unfold pairB2
    dsimp only
    exact sout2_B_0_eq (F := Ideal)

theorem out2_store (t : Fin cfg2.N) (h7 : t.val % 8 = 7) :
    (outsAt2 V c t.val t.isLt).1
      = k2_pay3 (F := Ideal) (iblk2 V c 2 t) (iblk2 V c 4 t) (outsAt2 V c t.val t.isLt).2 (iblk2 V c 5 t) := by
  rw [outsAt2_C V c t (by omega) h7]
  unfold pairC2
  dsimp only
  rw [sout2_C_0_eq (F := Ideal)]
  exact out2_C_6_eq (F := Ideal)

/-- The block stored at point (i, 7) is the step's value on rows 2048 i .. 2048 i + 2047. -/
theorem out2_at (t : Fin cfg2.N) (h7 : t.val % 8 = 7) (r : Fin 2048) (q : Fin 32) :
    (outsAt2 V c t.val t.isLt).1 (ix2 r q) = result2 V c (ix2 (col (rowBlk N_2 t) r) q) :=
  stored_at N_2 (fblk2_at V c) (pblk2_at V c) (sblk2_at V c) (w1blk2_at V c) (w2blk2_at V c) (bblk2_at V c) pay1_at pay2n_at
    pay3_at (fun n h => (outsAt2 V c n h).2) (fun n h => (outsAt2 V c n h).1) (acc2_reset V c) (acc2_step V c)
    (out2_store V c) t h7 r q

/-- What region 2 leaves in its output array: row ρ lies in the block stored at point 8 (ρ / 2048) + 7. -/
theorem gcs2_arr : (dat2 (F := Ideal) V c).arrAt 6 cfg2.N = result2 V c := by
  refine (dat2 (F := Ideal) V c).arrAt_eq_of_cover 6 _ (fun t hf => funext fun j => ?_) fun i => ?_
  · obtain ⟨-, -, -, -, -, -, -, -, -, q0, q1⟩ := idx_facts2 t
    obtain ⟨r, q, rfl⟩ : ∃ (r : Fin 2048) (q : Fin 32), j = ix2 r q := ⟨j 0, j 1, eq_ix2 j⟩
    refine (out2_at V c t ((flush2_6 t).mp hf) r q).trans (congrArg (result2 V c) (funext fun a => Fin.ext ?_))
    match a with
    | ⟨0, _⟩ => show 2048 * (t.val / 8) + r.val = win2_6.index t (0 : Fin 2) * 2048 + 1 * r.val; omega
    | ⟨1, _⟩ => show q.val = win2_6.index t (1 : Fin 2) * 32 + 1 * q.val; omega
  · have hN : cfg2.N = 64 := N_2
    have hi0 : (i 0).val < 16384 := (i 0).isLt
    have hi1 : (i 1).val < 32 := (i 1).isLt
    obtain ⟨t, ht⟩ : ∃ t : Fin cfg2.N, t.val = 8 * ((i 0).val / 2048) + 7 := ⟨⟨8 * ((i 0).val / 2048) + 7, by omega⟩, rfl⟩
    obtain ⟨-, -, -, -, -, -, -, -, -, q0, q1⟩ := idx_facts2 t
    refine ⟨t, (flush2_6 t).mpr (by omega), ?_⟩
    show i ∈ ((View.whole main_v4).slice (win2_6.rect t)).set
    rw [View.set_slice_whole, Rect.mem_set_unit]
    intro a
    match a with
    | ⟨0, _⟩ =>
      show win2_6.index t (0 : Fin 2) * 2048 ≤ (i 0).val ∧ (i 0).val < win2_6.index t (0 : Fin 2) * 2048 + 2048
      omega
    | ⟨1, _⟩ =>
      show win2_6.index t (1 : Fin 2) * 32 ≤ (i 1).val ∧ (i 1).val < win2_6.index t (1 : Fin 2) * 32 + 32
      omega

end Cert.KernelIdeal.Val

end
-- ==== Proof.KI.Gcs3Value.lean ====
import proofs.«115539_j71236327571877_1_alg».proof.Proof.KI.Gcs3
import proofs.«115539_j71236327571877_1_alg».proof.Proof.KI.GcsPay
import Idealize.ShloMosaic.Lib.Tactic
import Idealize.ShloMosaic.Lib.QrPanel.Panel

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.QrPanel.Panel (zeros2)
open Idealize.ShloMosaic.Pipeline (Dat Cfg Window)
open Cert.Spec (col gcs)

section Pieces

variable {F : FTy → Type} [FloatOps F]

/-- Each write covers the whole block and each read is of a whole block, so what a point leaves is its payload. -/
theorem sout3_A_0_eq :
    sout3_A_0 (F := F) c i arg2 harg2 arg3 harg3 arg4 harg4 arg5 harg5 arg6 harg6 arg7 harg7 arg8 harg8 arg9 harg9 hc0 hc1 x0 x1 x2 x3 x4 x5 = k1_pay2 x1 x3 x0 (k1_pay1 (F := F)) := by
  unfold sout3_A_0
  rw [View.read_writes_eq_canon _ _ _ fun y => scover3_A_0 (y := y) ..]
  unfold kernelRun1_A
  dsimp only
  sl_unfold_words
  rw [View.canon_cons_unit_zero (S := S2048x32) zeros2, View.readCov_unit_zero (S := S2048x32) _ zeros2]
  simp only [View.readAt_eq_ld, harg2.read_unread, harg3.read_unread, harg5.read_unread,
    View.ld_unit_zero (S := S2048x2048) zeros2, View.ld_unit_zero (S := S2048x64) zeros2, View.ld_unit_zero (S := S64x32) zeros2]

theorem sout3_B_0_eq :
    sout3_B_0 (F := F) c i arg2 harg2 arg3 harg3 arg4 harg4 arg5 harg5 arg6 harg6 arg7 harg7 arg8 harg8 arg9 harg9 hc0 hc1 x0 x1 x2 x3 x4 x5 xs0 = k1_pay2 x1 x3 x0 xs0 := by
  unfold sout3_B_0
  rw [View.read_writes_eq_canon _ _ _ fun y => scover3_B_0 (y := y) ..]
  unfold kernelRun1_B
  dsimp only
  sl_unfold_words
  rw [View.canon_unit_zero zeros2]
  simp only [View.readAt_eq_ld, harg2.read_unread, harg3.read_unread, harg5.read_unread, harg9.read_unread,
    View.ld_unit_zero (S := S2048x2048) zeros2, View.ld_unit_zero (S := S2048x64) zeros2, View.ld_unit_zero (S := S64x32) zeros2, View.ld_unit_zero (S := S2048x32) zeros2]

theorem sout3_C_0_eq :
    sout3_C_0 (F := F) c i arg2 harg2 arg3 harg3 arg4 harg4 arg5 harg5 arg6 harg6 arg7 harg7 arg8 harg8 arg9 harg9 hc0 hc1 x0 x1 x2 x3 x4 x5 xs0 = k1_pay2 x1 x3 x0 xs0 := by
  unfold sout3_C_0
  rw [View.read_writes_eq_canon _ _ _ fun y => scover3_C_0 (y := y) ..]
  unfold kernelRun1_C
  dsimp only
  sl_unfold_words
  rw [View.canon_unit_zero zeros2]
  simp only [View.readAt_eq_ld, harg2.read_unread, harg3.read_unread, harg5.read_unread, harg9.read_unread,
    View.ld_unit_zero (S := S2048x2048) zeros2, View.ld_unit_zero (S := S2048x64) zeros2, View.ld_unit_zero (S := S64x32) zeros2, View.ld_unit_zero (S := S2048x32) zeros2]

theorem out3_C_6_eq :
    out3_C_6 (F := F) c i arg2 harg2 arg3 harg3 arg4 harg4 arg5 harg5 arg6 harg6 arg7 harg7 arg8 harg8 arg9 harg9 hc0 hc1 x0 x1 x2 x3 x4 x5 xs0 = k1_pay3 x2 x4 (k1_pay2 x1 x3 x0 xs0) x5 := by
  unfold out3_C_6
  rw [View.read_writes_eq_canon _ _ _ fun y => cover3_C_6 (y := y) ..]
  unfold kernelRun1_C
  dsimp only
  sl_unfold_words
  rw [View.canon_unit_zero zeros2]
  simp only [View.readAt_eq_ld, harg2.read_unread, harg3.read_unread, harg4.read_unread, harg5.read_unread,
    harg6.read_unread, harg7.read_unread, harg9.read_unread, View.readCov_unit_zero (S := S2048x32) _ zeros2,
    View.ld_unit_zero (S := S2048x2048) zeros2, View.ld_unit_zero (S := S2048x64) zeros2, View.ld_unit_zero (S := S64x32) zeros2, View.ld_unit_zero (S := S2048x32) zeros2, View.ld_unit_zero (S := S1x32) zeros2]

end Pieces

/-- The printed index maps, decided over the 64 points. -/
theorem idx_facts3 : ∀ t : Fin cfg3.N,
    win3_0.index t (0 : Fin 2) = t.val / 8 ∧ win3_0.index t (1 : Fin 2) = t.val % 8
    ∧ win3_1.index t (0 : Fin 2) = t.val % 8 ∧ win3_1.index t (1 : Fin 2) = 0
    ∧ win3_2.index t (0 : Fin 2) = t.val / 8 ∧ win3_2.index t (1 : Fin 2) = 0
    ∧ (∀ a, win3_3.index t a = 0) ∧ (∀ a, win3_4.index t a = 0) ∧ (∀ a, win3_5.index t a = 0)
    ∧ win3_6.index t (0 : Fin 2) = t.val / 8 ∧ win3_6.index t (1 : Fin 2) = 0 :=
  (by decide +kernel : ∀ t : Fin grid3.N, _)

variable (V : (c : Dev nD) → (b : Ref sig .tc) → Buf (Elt Ideal) ((c : Thread nD τ).loc b)) (c : Dev nD)

abbrev filt3 : Vec Ideal S16384x16384 .bf16 := V c main_v0
abbrev xbar3 : Vec Ideal S16384x64 .f32 := V c main_arg0
abbrev feat3 : Vec Ideal S16384x64 .f32 := V c main_arg0
abbrev wproj3 : Vec Ideal S64x32 .f32 := V c main_arg8
abbrev wskip3 : Vec Ideal S64x32 .f32 := V c main_arg9
abbrev bias3 : Vec Ideal S1x32 .f32 := V c main_v5

/-- At point (i, k): block (i, k) of the filter, row blocks k and i of the two feature arrays, weights and bias whole. -/
theorem fblk3_at (t : Fin cfg3.N) (a b : Fin 2048) :
    iblk3 V c 0 t (ix2 a b) = filt3 V c (ix2 (col (rowBlk N_3 t) a) (col (colBlk t) b)) := by
  obtain ⟨ha, hb, -⟩ := idx_facts3 t
  refine congrArg (filt3 V c) (funext fun d => Fin.ext ?_)
  match d with
  | ⟨0, _⟩ => show win3_0.index t (0 : Fin 2) * 2048 + 1 * a.val = 2048 * (t.val / 8) + a.val; omega
  | ⟨1, _⟩ => show win3_0.index t (1 : Fin 2) * 2048 + 1 * b.val = 2048 * (t.val % 8) + b.val; omega

theorem pblk3_at (t : Fin cfg3.N) (a : Fin 2048) (d : Fin 64) :
    iblk3 V c 1 t (ix2 a d) = xbar3 V c (ix2 (col (colBlk t) a) d) := by
  obtain ⟨-, -, ha, hb, -⟩ := idx_facts3 t
  refine congrArg (xbar3 V c) (funext fun z => Fin.ext ?_)
  match z with
  | ⟨0, _⟩ => show win3_1.index t (0 : Fin 2) * 2048 + 1 * a.val = 2048 * (t.val % 8) + a.val; omega
  | ⟨1, _⟩ => show win3_1.index t (1 : Fin 2) * 64 + 1 * d.val = d.val; omega

theorem sblk3_at (t : Fin cfg3.N) (a : Fin 2048) (d : Fin 64) :
    iblk3 V c 2 t (ix2 a d) = feat3 V c (ix2 (col (rowBlk N_3 t) a) d) := by
  obtain ⟨-, -, -, -, ha, hb, -⟩ := idx_facts3 t
  refine congrArg (feat3 V c) (funext fun z => Fin.ext ?_)
  match z with
  | ⟨0, _⟩ => show win3_2.index t (0 : Fin 2) * 2048 + 1 * a.val = 2048 * (t.val / 8) + a.val; omega
  | ⟨1, _⟩ => show win3_2.index t (1 : Fin 2) * 64 + 1 * d.val = d.val; omega

theorem w1blk3_at (t : Fin cfg3.N) (d : Fin 64) (e : Fin 32) : iblk3 V c 3 t (ix2 d e) = wproj3 V c (ix2 d e) :=
  congrArg (wproj3 V c) (funext fun z => Fin.ext (win3_3.rect_emb_val_of_index_zero t z ((idx_facts3 t).2.2.2.2.2.2.1 z) _))

theorem w2blk3_at (t : Fin cfg3.N) (d : Fin 64) (e : Fin 32) : iblk3 V c 4 t (ix2 d e) = wskip3 V c (ix2 d e) :=
  congrArg (wskip3 V c) (funext fun z => Fin.ext (win3_4.rect_emb_val_of_index_zero t z ((idx_facts3 t).2.2.2.2.2.2.2.1 z) _))

theorem bblk3_at (t : Fin cfg3.N) (d : Fin 1) (e : Fin 32) : iblk3 V c 5 t (ix2 d e) = bias3 V c (ix2 d e) :=
  congrArg (bias3 V c) (funext fun z => Fin.ext (win3_5.rect_emb_val_of_index_zero t z ((idx_facts3 t).2.2.2.2.2.2.2.2.1 z) _))

/-- The step's value on the arrays the region finds. -/
abbrev result3 : FVec Ideal ⟨2, ![16384, 32]⟩ .f32 :=
  gcs (filt3 V c) (xbar3 V c) (feat3 V c) (wproj3 V c) (wskip3 V c) (fun j => bias3 V c (ix2 0 (j 0)))

/-- The accumulator and the output block after each kind of point. -/
theorem acc3_reset (t : Fin cfg3.N) (h0 : t.val % 8 = 0) :
    (outsAt3 V c t.val t.isLt).2
      = k1_pay2 (F := Ideal) (iblk3 V c 1 t) (iblk3 V c 3 t) (iblk3 V c 0 t) (k1_pay1 (F := Ideal)) := by
  rw [outsAt3_A V c t h0 (by omega)]
  unfold pairA3
  dsimp only
  exact sout3_A_0_eq (F := Ideal)

theorem acc3_step (t : Fin cfg3.N) (h0 : ¬t.val % 8 = 0) :
    (outsAt3 V c t.val t.isLt).2
      = k1_pay2 (F := Ideal) (iblk3 V c 1 t) (iblk3 V c 3 t) (iblk3 V c 0 t) (outsAt3 V c (t.val - 1) (Nat.lt_of_le_of_lt (Nat.sub_le _ _) t.isLt)).2 := by
  by_cases h7 : t.val % 8 = 7
  · rw [outsAt3_C V c t h0 h7]
    unfold pairC3
    dsimp only
    exact sout3_C_0_eq (F := Ideal)
  · rw [outsAt3_B V c t h0 h7]
    unfold pairB3
    dsimp only
    exact sout3_B_0_eq (F := Ideal)

theorem out3_store (t : Fin cfg3.N) (h7 : t.val % 8 = 7) :
    (outsAt3 V c t.val t.isLt).1
      = k1_pay3 (F := Ideal) (iblk3 V c 2 t) (iblk3 V c 4 t) (outsAt3 V c t.val t.isLt).2 (iblk3 V c 5 t) := by
  rw [outsAt3_C V c t (by omega) h7]
  unfold pairC3
  dsimp only
  rw [sout3_C_0_eq (F := Ideal)]
  exact out3_C_6_eq (F := Ideal)

/-- The block stored at point (i, 7) is the step's value on rows 2048 i .. 2048 i + 2047. -/
theorem out3_at (t : Fin cfg3.N) (h7 : t.val % 8 = 7) (r : Fin 2048) (q : Fin 32) :
    (outsAt3 V c t.val t.isLt).1 (ix2 r q) = result3 V c (ix2 (col (rowBlk N_3 t) r) q) :=
  stored_at N_3 (fblk3_at V c) (pblk3_at V c) (sblk3_at V c) (w1blk3_at V c) (w2blk3_at V c) (bblk3_at V c) pay1_at pay2_at
    pay3_at (fun n h => (outsAt3 V c n h).2) (fun n h => (outsAt3 V c n h).1) (acc3_reset V c) (acc3_step V c)
    (out3_store V c) t h7 r q

/-- What region 3 leaves in its output array: row ρ lies in the block stored at point 8 (ρ / 2048) + 7. -/
theorem gcs3_arr : (dat3 (F := Ideal) V c).arrAt 6 cfg3.N = result3 V c := by
  refine (dat3 (F := Ideal) V c).arrAt_eq_of_cover 6 _ (fun t hf => funext fun j => ?_) fun i => ?_
  · obtain ⟨-, -, -, -, -, -, -, -, -, q0, q1⟩ := idx_facts3 t
    obtain ⟨r, q, rfl⟩ : ∃ (r : Fin 2048) (q : Fin 32), j = ix2 r q := ⟨j 0, j 1, eq_ix2 j⟩
    refine (out3_at V c t ((flush3_6 t).mp hf) r q).trans (congrArg (result3 V c) (funext fun a => Fin.ext ?_))
    match a with
    | ⟨0, _⟩ => show 2048 * (t.val / 8) + r.val = win3_6.index t (0 : Fin 2) * 2048 + 1 * r.val; omega
    | ⟨1, _⟩ => show q.val = win3_6.index t (1 : Fin 2) * 32 + 1 * q.val; omega
  · have hN : cfg3.N = 64 := N_3
    have hi0 : (i 0).val < 16384 := (i 0).isLt
    have hi1 : (i 1).val < 32 := (i 1).isLt
    obtain ⟨t, ht⟩ : ∃ t : Fin cfg3.N, t.val = 8 * ((i 0).val / 2048) + 7 := ⟨⟨8 * ((i 0).val / 2048) + 7, by omega⟩, rfl⟩
    obtain ⟨-, -, -, -, -, -, -, -, -, q0, q1⟩ := idx_facts3 t
    refine ⟨t, (flush3_6 t).mpr (by omega), ?_⟩
    show i ∈ ((View.whole main_v6).slice (win3_6.rect t)).set
    rw [View.set_slice_whole, Rect.mem_set_unit]
    intro a
    match a with
    | ⟨0, _⟩ =>
      show win3_6.index t (0 : Fin 2) * 2048 ≤ (i 0).val ∧ (i 0).val < win3_6.index t (0 : Fin 2) * 2048 + 2048
      omega
    | ⟨1, _⟩ =>
      show win3_6.index t (1 : Fin 2) * 32 ≤ (i 1).val ∧ (i 1).val < win3_6.index t (1 : Fin 2) * 32 + 32
      omega

end Cert.KernelIdeal.Val

end
-- ==== Proof.KI.Gcs4Value.lean ====
import proofs.«115539_j71236327571877_1_alg».proof.Proof.KI.Gcs4
import proofs.«115539_j71236327571877_1_alg».proof.Proof.KI.GcsPay
import Idealize.ShloMosaic.Lib.Tactic
import Idealize.ShloMosaic.Lib.QrPanel.Panel

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.QrPanel.Panel (zeros2)
open Idealize.ShloMosaic.Pipeline (Dat Cfg Window)
open Cert.Spec (col gcs)

section Pieces

variable {F : FTy → Type} [FloatOps F]

/-- Each write covers the whole block and each read is of a whole block, so what a point leaves is its payload. -/
theorem sout4_A_0_eq :
    sout4_A_0 (F := F) c i arg2 harg2 arg3 harg3 arg4 harg4 arg5 harg5 arg6 harg6 arg7 harg7 arg8 harg8 arg9 harg9 hc0 hc1 x0 x1 x2 x3 x4 x5 = k2_pay2 x1 x3 x0 (k2_pay1 (F := F)) := by
  unfold sout4_A_0
  rw [View.read_writes_eq_canon _ _ _ fun y => scover4_A_0 (y := y) ..]
  unfold kernelRun2_A
  dsimp only
  sl_unfold_words
  rw [View.canon_cons_unit_zero (S := S2048x32) zeros2, View.readCov_unit_zero (S := S2048x32) _ zeros2]
  simp only [View.readAt_eq_ld, harg2.read_unread, harg3.read_unread, harg5.read_unread,
    View.ld_unit_zero (S := S2048x2048) zeros2, View.ld_unit_zero (S := S2048x64) zeros2, View.ld_unit_zero (S := S2048x32) zeros2, View.ld_unit_zero (S := S64x32) zeros2, View.ld_unit_zero (S := S32x32) zeros2]

theorem sout4_B_0_eq :
    sout4_B_0 (F := F) c i arg2 harg2 arg3 harg3 arg4 harg4 arg5 harg5 arg6 harg6 arg7 harg7 arg8 harg8 arg9 harg9 hc0 hc1 x0 x1 x2 x3 x4 x5 xs0 = k2_pay2 x1 x3 x0 xs0 := by
  unfold sout4_B_0
  rw [View.read_writes_eq_canon _ _ _ fun y => scover4_B_0 (y := y) ..]
  unfold kernelRun2_B
  dsimp only
  sl_unfold_words
  rw [View.canon_unit_zero zeros2]
  simp only [View.readAt_eq_ld, harg2.read_unread, harg3.read_unread, harg5.read_unread, harg9.read_unread,
    View.ld_unit_zero (S := S2048x2048) zeros2, View.ld_unit_zero (S := S2048x64) zeros2, View.ld_unit_zero (S := S2048x32) zeros2, View.ld_unit_zero (S := S64x32) zeros2, View.ld_unit_zero (S := S32x32) zeros2, View.ld_unit_zero (S := S2048x32) zeros2]

theorem sout4_C_0_eq :
    sout4_C_0 (F := F) c i arg2 harg2 arg3 harg3 arg4 harg4 arg5 harg5 arg6 harg6 arg7 harg7 arg8 harg8 arg9 harg9 hc0 hc1 x0 x1 x2 x3 x4 x5 xs0 = k2_pay2 x1 x3 x0 xs0 := by
  unfold sout4_C_0
  rw [View.read_writes_eq_canon _ _ _ fun y => scover4_C_0 (y := y) ..]
  unfold kernelRun2_C
  dsimp only
  sl_unfold_words
  rw [View.canon_unit_zero zeros2]
  simp only [View.readAt_eq_ld, harg2.read_unread, harg3.read_unread, harg5.read_unread, harg9.read_unread,
    View.ld_unit_zero (S := S2048x2048) zeros2, View.ld_unit_zero (S := S2048x64) zeros2, View.ld_unit_zero (S := S2048x32) zeros2, View.ld_unit_zero (S := S64x32) zeros2, View.ld_unit_zero (S := S32x32) zeros2, View.ld_unit_zero (S := S2048x32) zeros2]

theorem out4_C_6_eq :
    out4_C_6 (F := F) c i arg2 harg2 arg3 harg3 arg4 harg4 arg5 harg5 arg6 harg6 arg7 harg7 arg8 harg8 arg9 harg9 hc0 hc1 x0 x1 x2 x3 x4 x5 xs0 = k2_pay3 x2 x4 (k2_pay2 x1 x3 x0 xs0) x5 := by
  unfold out4_C_6
  rw [View.read_writes_eq_canon _ _ _ fun y => cover4_C_6 (y := y) ..]
  unfold kernelRun2_C
  dsimp only
  sl_unfold_words
  rw [View.canon_unit_zero zeros2]
  simp only [View.readAt_eq_ld, harg2.read_unread, harg3.read_unread, harg4.read_unread, harg5.read_unread,
    harg6.read_unread, harg7.read_unread, harg9.read_unread, View.readCov_unit_zero (S := S2048x32) _ zeros2,
    View.ld_unit_zero (S := S2048x2048) zeros2, View.ld_unit_zero (S := S2048x64) zeros2, View.ld_unit_zero (S := S2048x32) zeros2, View.ld_unit_zero (S := S64x32) zeros2, View.ld_unit_zero (S := S32x32) zeros2, View.ld_unit_zero (S := S2048x32) zeros2, View.ld_unit_zero (S := S1x32) zeros2]

end Pieces

/-- The printed index maps, decided over the 64 points. -/
theorem idx_facts4 : ∀ t : Fin cfg4.N,
    win4_0.index t (0 : Fin 2) = t.val / 8 ∧ win4_0.index t (1 : Fin 2) = t.val % 8
    ∧ win4_1.index t (0 : Fin 2) = t.val % 8 ∧ win4_1.index t (1 : Fin 2) = 0
    ∧ win4_2.index t (0 : Fin 2) = t.val / 8 ∧ win4_2.index t (1 : Fin 2) = 0
    ∧ (∀ a, win4_3.index t a = 0) ∧ (∀ a, win4_4.index t a = 0) ∧ (∀ a, win4_5.index t a = 0)
    ∧ win4_6.index t (0 : Fin 2) = t.val / 8 ∧ win4_6.index t (1 : Fin 2) = 0 :=
  (by decide +kernel : ∀ t : Fin grid4.N, _)

variable (V : (c : Dev nD) → (b : Ref sig .tc) → Buf (Elt Ideal) ((c : Thread nD τ).loc b)) (c : Dev nD)

abbrev filt4 : Vec Ideal S16384x16384 .bf16 := V c main_v0
abbrev xbar4 : Vec Ideal S16384x32 .f32 := V c main_v6
abbrev feat4 : Vec Ideal S16384x64 .f32 := V c main_arg0
abbrev wproj4 : Vec Ideal S32x32 .f32 := V c main_arg11
abbrev wskip4 : Vec Ideal S64x32 .f32 := V c main_arg12
abbrev bias4 : Vec Ideal S1x32 .f32 := V c main_v7

/-- At point (i, k): block (i, k) of the filter, row blocks k and i of the two feature arrays, weights and bias whole. -/
theorem fblk4_at (t : Fin cfg4.N) (a b : Fin 2048) :
    iblk4 V c 0 t (ix2 a b) = filt4 V c (ix2 (col (rowBlk N_4 t) a) (col (colBlk t) b)) := by
  obtain ⟨ha, hb, -⟩ := idx_facts4 t
  refine congrArg (filt4 V c) (funext fun d => Fin.ext ?_)
  match d with
  | ⟨0, _⟩ => show win4_0.index t (0 : Fin 2) * 2048 + 1 * a.val = 2048 * (t.val / 8) + a.val; omega
  | ⟨1, _⟩ => show win4_0.index t (1 : Fin 2) * 2048 + 1 * b.val = 2048 * (t.val % 8) + b.val; omega

theorem pblk4_at (t : Fin cfg4.N) (a : Fin 2048) (d : Fin 32) :
    iblk4 V c 1 t (ix2 a d) = xbar4 V c (ix2 (col (colBlk t) a) d) := by
  obtain ⟨-, -, ha, hb, -⟩ := idx_facts4 t
  refine congrArg (xbar4 V c) (funext fun z => Fin.ext ?_)
  match z with
  | ⟨0, _⟩ => show win4_1.index t (0 : Fin 2) * 2048 + 1 * a.val = 2048 * (t.val % 8) + a.val; omega
  | ⟨1, _⟩ => show win4_1.index t (1 : Fin 2) * 32 + 1 * d.val = d.val; omega

theorem sblk4_at (t : Fin cfg4.N) (a : Fin 2048) (d : Fin 64) :
    iblk4 V c 2 t (ix2 a d) = feat4 V c (ix2 (col (rowBlk N_4 t) a) d) := by
  obtain ⟨-, -, -, -, ha, hb, -⟩ := idx_facts4 t
  refine congrArg (feat4 V c) (funext fun z => Fin.ext ?_)
  match z with
  | ⟨0, _⟩ => show win4_2.index t (0 : Fin 2) * 2048 + 1 * a.val = 2048 * (t.val / 8) + a.val; omega
  | ⟨1, _⟩ => show win4_2.index t (1 : Fin 2) * 64 + 1 * d.val = d.val; omega

theorem w1blk4_at (t : Fin cfg4.N) (d : Fin 32) (e : Fin 32) : iblk4 V c 3 t (ix2 d e) = wproj4 V c (ix2 d e) :=
  congrArg (wproj4 V c) (funext fun z => Fin.ext (win4_3.rect_emb_val_of_index_zero t z ((idx_facts4 t).2.2.2.2.2.2.1 z) _))

theorem w2blk4_at (t : Fin cfg4.N) (d : Fin 64) (e : Fin 32) : iblk4 V c 4 t (ix2 d e) = wskip4 V c (ix2 d e) :=
  congrArg (wskip4 V c) (funext fun z => Fin.ext (win4_4.rect_emb_val_of_index_zero t z ((idx_facts4 t).2.2.2.2.2.2.2.1 z) _))

theorem bblk4_at (t : Fin cfg4.N) (d : Fin 1) (e : Fin 32) : iblk4 V c 5 t (ix2 d e) = bias4 V c (ix2 d e) :=
  congrArg (bias4 V c) (funext fun z => Fin.ext (win4_5.rect_emb_val_of_index_zero t z ((idx_facts4 t).2.2.2.2.2.2.2.2.1 z) _))

/-- The step's value on the arrays the region finds. -/
abbrev result4 : FVec Ideal ⟨2, ![16384, 32]⟩ .f32 :=
  gcs (filt4 V c) (xbar4 V c) (feat4 V c) (wproj4 V c) (wskip4 V c) (fun j => bias4 V c (ix2 0 (j 0)))

/-- The accumulator and the output block after each kind of point. -/
theorem acc4_reset (t : Fin cfg4.N) (h0 : t.val % 8 = 0) :
    (outsAt4 V c t.val t.isLt).2
      = k2_pay2 (F := Ideal) (iblk4 V c 1 t) (iblk4 V c 3 t) (iblk4 V c 0 t) (k2_pay1 (F := Ideal)) := by
  rw [outsAt4_A V c t h0 (by omega)]
  unfold pairA4
  dsimp only
  exact sout4_A_0_eq (F := Ideal)

theorem acc4_step (t : Fin cfg4.N) (h0 : ¬t.val % 8 = 0) :
    (outsAt4 V c t.val t.isLt).2
      = k2_pay2 (F := Ideal) (iblk4 V c 1 t) (iblk4 V c 3 t) (iblk4 V c 0 t) (outsAt4 V c (t.val - 1) (Nat.lt_of_le_of_lt (Nat.sub_le _ _) t.isLt)).2 := by
  by_cases h7 : t.val % 8 = 7
  · rw [outsAt4_C V c t h0 h7]
    unfold pairC4
    dsimp only
    exact sout4_C_0_eq (F := Ideal)
  · rw [outsAt4_B V c t h0 h7]
    unfold pairB4
    dsimp only
    exact sout4_B_0_eq (F := Ideal)

theorem out4_store (t : Fin cfg4.N) (h7 : t.val % 8 = 7) :
    (outsAt4 V c t.val t.isLt).1
      = k2_pay3 (F := Ideal) (iblk4 V c 2 t) (iblk4 V c 4 t) (outsAt4 V c t.val t.isLt).2 (iblk4 V c 5 t) := by
  rw [outsAt4_C V c t (by omega) h7]
  unfold pairC4
  dsimp only
  rw [sout4_C_0_eq (F := Ideal)]
  exact out4_C_6_eq (F := Ideal)

/-- The block stored at point (i, 7) is the step's value on rows 2048 i .. 2048 i + 2047. -/
theorem out4_at (t : Fin cfg4.N) (h7 : t.val % 8 = 7) (r : Fin 2048) (q : Fin 32) :
    (outsAt4 V c t.val t.isLt).1 (ix2 r q) = result4 V c (ix2 (col (rowBlk N_4 t) r) q) :=
  stored_at N_4 (fblk4_at V c) (pblk4_at V c) (sblk4_at V c) (w1blk4_at V c) (w2blk4_at V c) (bblk4_at V c) pay1_at pay2n_at
    pay3_at (fun n h => (outsAt4 V c n h).2) (fun n h => (outsAt4 V c n h).1) (acc4_reset V c) (acc4_step V c)
    (out4_store V c) t h7 r q

/-- What region 4 leaves in its output array: row ρ lies in the block stored at point 8 (ρ / 2048) + 7. -/
theorem gcs4_arr : (dat4 (F := Ideal) V c).arrAt 6 cfg4.N = result4 V c := by
  refine (dat4 (F := Ideal) V c).arrAt_eq_of_cover 6 _ (fun t hf => funext fun j => ?_) fun i => ?_
  · obtain ⟨-, -, -, -, -, -, -, -, -, q0, q1⟩ := idx_facts4 t
    obtain ⟨r, q, rfl⟩ : ∃ (r : Fin 2048) (q : Fin 32), j = ix2 r q := ⟨j 0, j 1, eq_ix2 j⟩
    refine (out4_at V c t ((flush4_6 t).mp hf) r q).trans (congrArg (result4 V c) (funext fun a => Fin.ext ?_))
    match a with
    | ⟨0, _⟩ => show 2048 * (t.val / 8) + r.val = win4_6.index t (0 : Fin 2) * 2048 + 1 * r.val; omega
    | ⟨1, _⟩ => show q.val = win4_6.index t (1 : Fin 2) * 32 + 1 * q.val; omega
  · have hN : cfg4.N = 64 := N_4
    have hi0 : (i 0).val < 16384 := (i 0).isLt
    have hi1 : (i 1).val < 32 := (i 1).isLt
    obtain ⟨t, ht⟩ : ∃ t : Fin cfg4.N, t.val = 8 * ((i 0).val / 2048) + 7 := ⟨⟨8 * ((i 0).val / 2048) + 7, by omega⟩, rfl⟩
    obtain ⟨-, -, -, -, -, -, -, -, -, q0, q1⟩ := idx_facts4 t
    refine ⟨t, (flush4_6 t).mpr (by omega), ?_⟩
    show i ∈ ((View.whole main_v8).slice (win4_6.rect t)).set
    rw [View.set_slice_whole, Rect.mem_set_unit]
    intro a
    match a with
    | ⟨0, _⟩ =>
      show win4_6.index t (0 : Fin 2) * 2048 ≤ (i 0).val ∧ (i 0).val < win4_6.index t (0 : Fin 2) * 2048 + 2048
      omega
    | ⟨1, _⟩ =>
      show win4_6.index t (1 : Fin 2) * 32 ≤ (i 1).val ∧ (i 1).val < win4_6.index t (1 : Fin 2) * 32 + 32
      omega

end Cert.KernelIdeal.Val

end
-- ==== Proof.KI.CastValue.lean ====
import proofs.«115539_j71236327571877_1_alg».proof.Proof.KI.Cast
import Idealize.ShloMosaic.Lib.Pipeline.Value
import Idealize.ShloMosaic.Lib.ValueIdx
import Idealize.ShloMosaic.PureOps.Ideal.Laws
import Idealize.ShloMosaic.Lib.QrPanel.Panel

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.QrPanel.Panel (zeros2)

theorem same_block : ∀ t : Fin cfg0.N,
    win0_0.index t (0 : Fin 2) = win0_1.index t (0 : Fin 2)
    ∧ win0_0.index t (1 : Fin 2) = win0_1.index t (1 : Fin 2)
    ∧ win0_1.index t (0 : Fin 2) ≤ 15 ∧ win0_1.index t (1 : Fin 2) ≤ 7 :=
  (by decide +kernel : ∀ t : Fin grid0.N, _)

theorem block_onto : ∀ (q0 : Fin 16) (q1 : Fin 8), ∃ t : Fin cfg0.N, win0_1.index t = ![q0.val, q1.val] :=
  (by decide +kernel : ∀ (q0 : Fin 16) (q1 : Fin 8), ∃ t : Fin grid0.N, win0_1.index t = ![q0.val, q1.val])

section Ideal

variable (V : (c : Dev nD) → (b : Ref sig .tc) → Buf (Elt Ideal) ((c : Thread nD τ).loc b))

theorem flushed_eq_input (c : Dev nD) (t : Fin cfg0.N) :
    (dat0 (F := Ideal) V c).flushed 1 t
      = ((cfg0.win 1).blk t).view.read (Elt Ideal) (V c main_arg1 : S16384x16384.Idx → EReal) := by
  show (cfg0.win 1).cut (grid0.coords t) ((dat0 (F := Ideal) V c).after 1 t) = _
  rw [after0_1]
  unfold out0_1
  rw [View.canon_unit_zero zeros2]
  simp only [View.ld_unit_zero (S := S1024x2048) zeros2]
  obtain ⟨e0, e1, b0, b1⟩ := same_block t
  funext j
  show (V c main_arg1 : S16384x16384.Idx → EReal) (((cfg0.win 0).blk t).view.emb j)
      = (V c main_arg1 : S16384x16384.Idx → EReal) (((cfg0.win 1).blk t).view.emb j)
  have h : ((cfg0.win 0).blk t).view.emb j = ((cfg0.win 1).blk t).view.emb j := by
    funext a; apply Fin.ext
    match a with
    | ⟨0, _⟩ =>
      show win0_0.index t (0 : Fin 2) * 1024 + 1 * (j 0).val = win0_1.index t (0 : Fin 2) * 1024 + 1 * (j 0).val
      rw [e0]
    | ⟨1, _⟩ =>
      show win0_0.index t (1 : Fin 2) * 2048 + 1 * (j 1).val = win0_1.index t (1 : Fin 2) * 2048 + 1 * (j 1).val
      rw [e1]
  rw [h]

end Ideal

theorem blocks_cover (i : S16384x16384.Idx) :
    ∃ t : Fin cfg0.N, (cfg0.win 1).flush t = true ∧ i ∈ ((cfg0.win 1).blk t).view.set := by
  have hi0 : (i 0).val < 16384 := (i 0).isLt
  have hi1 : (i 1).val < 16384 := (i 1).isLt
  obtain ⟨t, ht⟩ := block_onto ⟨(i 0).val / 1024, by omega⟩ ⟨(i 1).val / 2048, by omega⟩
  have q0 : win0_1.index t (0 : Fin 2) = (i 0).val / 1024 := congrFun ht 0
  have q1 : win0_1.index t (1 : Fin 2) = (i 1).val / 2048 := congrFun ht 1
  refine ⟨t, flush0_1 t, ?_⟩
  show i ∈ ((View.whole main_v0).slice (win0_1.rect t)).set
  rw [View.set_slice_whole, Rect.mem_set_unit]
  intro a
  match a with
  | ⟨0, _⟩ =>
    show win0_1.index t (0 : Fin 2) * 1024 ≤ (i 0).val ∧ (i 0).val < win0_1.index t (0 : Fin 2) * 1024 + 1024
    omega
  | ⟨1, _⟩ =>
    show win0_1.index t (1 : Fin 2) * 2048 ≤ (i 1).val ∧ (i 1).val < win0_1.index t (1 : Fin 2) * 2048 + 2048
    omega

theorem cast_arr (V : (c : Dev nD) → (b : Ref sig .tc) → Buf (Elt Ideal) ((c : Thread nD τ).loc b)) (c : Dev nD) :
    (dat0 (F := Ideal) V c).arrAt 1 cfg0.N = (V c main_arg1 : S16384x16384.Idx → EReal) :=
  (dat0 (F := Ideal) V c).arrAt_eq_of_cover 1 (V c main_arg1 : S16384x16384.Idx → EReal)
    (fun t _ => flushed_eq_input V c t) blocks_cover

end Cert.KernelIdeal.Val

end
-- ==== Proof.KI.Value.lean ====
import proofs.«115539_j71236327571877_1_alg».proof.Proof.KI.Run
import proofs.«115539_j71236327571877_1_alg».proof.Proof.KI.CastValue
import proofs.«115539_j71236327571877_1_alg».proof.Proof.KI.Tail
import proofs.«115539_j71236327571877_1_alg».proof.Proof.Spec

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

abbrev Vals : Type := (c : Dev nD) → (b : Ref sig .tc) → Buf (Elt Ideal) ((c : Thread nD τ).loc b)

abbrev biasRow (b : S1x32.Idx → EReal) : FVec Ideal ⟨1, ![32]⟩ .f32 := fun j => b (ix2 0 (j 0))

theorem gcs_congr {D : ℕ} {L L' : FVec Ideal ⟨2, ![16384, 16384]⟩ .f32} {xb xb' : FVec Ideal ⟨2, ![16384, D]⟩ .f32}
    {x x' : FVec Ideal ⟨2, ![16384, 64]⟩ .f32} {w1 w1' : FVec Ideal ⟨2, ![D, 32]⟩ .f32} {w2 w2' : FVec Ideal ⟨2, ![64, 32]⟩ .f32}
    {b b' : FVec Ideal ⟨1, ![32]⟩ .f32} (hL : L = L') (hxb : xb = xb') (hx : x = x') (hw1 : w1 = w1') (hw2 : w2 = w2') (hb : b = b') :
    Spec.gcs L xb x w1 w2 b = Spec.gcs L' xb' x' w1' w2' b' := by
  subst hL hxb hx hw1 hw2 hb; rfl

section Walk

variable (h1 : ∀ (V : Vals) (c : Dev nD), (dat1 (F := Ideal) V c).arrAt 6 cfg1.N
    = Spec.gcs (V c main_v0) (V c main_arg0) (V c main_arg0) (V c main_arg2) (V c main_arg3) (biasRow (V c main_v1)))
variable (h2 : ∀ (V : Vals) (c : Dev nD), (dat2 (F := Ideal) V c).arrAt 6 cfg2.N
    = Spec.gcs (V c main_v0) (V c main_v2) (V c main_arg0) (V c main_arg5) (V c main_arg6) (biasRow (V c main_v3)))
variable (h3 : ∀ (V : Vals) (c : Dev nD), (dat3 (F := Ideal) V c).arrAt 6 cfg3.N
    = Spec.gcs (V c main_v0) (V c main_arg0) (V c main_arg0) (V c main_arg8) (V c main_arg9) (biasRow (V c main_v5)))
variable (h4 : ∀ (V : Vals) (c : Dev nD), (dat4 (F := Ideal) V c).arrAt 6 cfg4.N
    = Spec.gcs (V c main_v0) (V c main_v6) (V c main_arg0) (V c main_arg11) (V c main_arg12) (biasRow (V c main_v7)))

variable (m : (ℓ : Loc nD τ sig) → Buf (Elt Ideal) ℓ) (ρ : Dev nD → PrngReg)

include h1 h2 h3 h4 in
/-- Each step's operands are read back to the launch arrays: no later step writes what it reads. -/
theorem run_value : θ_run defs (onTc (τ := τ) (main (F := Ideal))) ⟨m, fun _ => 0, ρ⟩ (fun r => ∀ c : Dev nD,
      r.2.mem ((c.tc : Thread nD τ).loc main_v14)
        = tailK (Spec.gcs (m ((c.tc : Thread nD τ).loc main_arg1)) (Spec.gcs (m ((c.tc : Thread nD τ).loc main_arg1)) (m ((c.tc : Thread nD τ).loc main_arg0)) (m ((c.tc : Thread nD τ).loc main_arg0)) (m ((c.tc : Thread nD τ).loc main_arg2)) (m ((c.tc : Thread nD τ).loc main_arg3)) (m ((c.tc : Thread nD τ).loc main_arg4))) (m ((c.tc : Thread nD τ).loc main_arg0)) (m ((c.tc : Thread nD τ).loc main_arg5)) (m ((c.tc : Thread nD τ).loc main_arg6)) (m ((c.tc : Thread nD τ).loc main_arg7)))
        (Spec.gcs (m ((c.tc : Thread nD τ).loc main_arg1)) (Spec.gcs (m ((c.tc : Thread nD τ).loc main_arg1)) (m ((c.tc : Thread nD τ).loc main_arg0)) (m ((c.tc : Thread nD τ).loc main_arg0)) (m ((c.tc : Thread nD τ).loc main_arg8)) (m ((c.tc : Thread nD τ).loc main_arg9)) (m ((c.tc : Thread nD τ).loc main_arg10))) (m ((c.tc : Thread nD τ).loc main_arg0)) (m ((c.tc : Thread nD τ).loc main_arg11)) (m ((c.tc : Thread nD τ).loc main_arg12)) (m ((c.tc : Thread nD τ).loc main_arg13)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    have f := (W1_arr m ρ c 1).trans (cast_arr (V0 m ρ) c)
    have s1 := (W3_out m ρ c).trans ((h1 (V2 m ρ) c).trans (gcs_congr ((kept m ρ c 1 1).trans f) (kept m ρ c 0 2) (kept m ρ c 0 2)
      (kept m ρ c 0 2) (kept m ρ c 0 2) ((after1_bias (W1 m ρ c)).trans (kept m ρ c 0 1))))
    have s2 := (W5_arr m ρ c 6).trans ((h2 (V4 m ρ) c).trans (gcs_congr ((kept m ρ c 1 3).trans f) ((kept m ρ c 3 1).trans s1) (kept m ρ c 0 4)
      (kept m ρ c 0 4) (kept m ρ c 0 4) ((after2_bias (W3 m ρ c)).trans (kept m ρ c 0 3))))
    have s3 := (W7_out m ρ c).trans ((h3 (V6 m ρ) c).trans (gcs_congr ((kept m ρ c 1 5).trans f) (kept m ρ c 0 6) (kept m ρ c 0 6)
      (kept m ρ c 0 6) (kept m ρ c 0 6) ((after3_bias (W5 m ρ c)).trans (kept m ρ c 0 5))))
    have s4 := (W9_arr m ρ c 6).trans ((h4 (V8 m ρ) c).trans (gcs_congr ((kept m ρ c 1 7).trans f) ((kept m ρ c 7 1).trans s3) (kept m ρ c 0 8)
      (kept m ρ c 0 8) (kept m ρ c 0 8) ((after4_bias (W7 m ρ c)).trans (kept m ρ c 0 7))))
    have g {b : Ref sig .tc} := arg_read m ρ h c (b := b)
    ⟨(h c _ (mem_uc main_v14 (by decide))).trans ((after5_result (W9 m ρ c)).trans (congrArg₂ tailK ((kept m ρ c 5 4).trans s2) s4)),
      g (by decide), g (by decide), g (by decide), g (by decide), g (by decide), g (by decide), g (by decide), g (by decide), g (by decide), g (by decide), g (by decide), g (by decide), g (by decide), g (by decide)⟩) (run_all m ρ)

end Walk

end Cert.KernelIdeal.Val

end
-- ==== Proof.lean ====
import proofs.«115539_j71236327571877_1_alg».proof.Defs
import proofs.«115539_j71236327571877_1_alg».proof.Proof.Gen.Kernel
import proofs.«115539_j71236327571877_1_alg».proof.Proof.Gen.Kernel.Skeleton
import proofs.«115539_j71236327571877_1_alg».proof.Proof.Gen.Kernel.Launch
import proofs.«115539_j71236327571877_1_alg».proof.Proof.Gen.Kernel.Regions
import proofs.«115539_j71236327571877_1_alg».proof.Proof.Gen.Kernel.Points
import proofs.«115539_j71236327571877_1_alg».proof.Proof.Gen.KernelIdeal
import proofs.«115539_j71236327571877_1_alg».proof.Proof.Gen.KernelIdeal.Skeleton
import proofs.«115539_j71236327571877_1_alg».proof.Proof.Gen.KernelIdeal.Launch
import proofs.«115539_j71236327571877_1_alg».proof.Proof.Gen.KernelIdeal.Regions
import proofs.«115539_j71236327571877_1_alg».proof.Proof.Gen.KernelIdeal.Points
import proofs.«115539_j71236327571877_1_alg».proof.Proof.Gen.ReferenceIdeal
import proofs.«115539_j71236327571877_1_alg».proof.Proof.Gen.ReferenceIdeal.Run
import proofs.«115539_j71236327571877_1_alg».proof.Proof.Gen.Pre_finite_inputs
import proofs.«115539_j71236327571877_1_alg».proof.Proof.Spec
import proofs.«115539_j71236327571877_1_alg».proof.Proof.KI.Tail
import proofs.«115539_j71236327571877_1_alg».proof.Proof.RefValue
import proofs.«115539_j71236327571877_1_alg».proof.Proof.K.Run
import proofs.«115539_j71236327571877_1_alg».proof.Proof.KI.Run
import proofs.«115539_j71236327571877_1_alg».proof.Proof.KI.Gcs1Value
import proofs.«115539_j71236327571877_1_alg».proof.Proof.KI.Gcs2Value
import proofs.«115539_j71236327571877_1_alg».proof.Proof.KI.Gcs3Value
import proofs.«115539_j71236327571877_1_alg».proof.Proof.KI.Gcs4Value
import proofs.«115539_j71236327571877_1_alg».proof.Proof.KI.Value
import Idealize.ShloMosaic.Adequacy
import Idealize.ShloMosaic.Init

noncomputable section

open Idealize.ShloMosaic Idealize.ShloMosaic.TcCoe Idealize.SL.Sem

namespace Cert.Proof

-- Both programs end with the same host operations: the mean of the two stacks' results.
theorem tail_eq (a b : FVec Ideal Cert.KernelIdeal.S16384x32 .f32) :
    Cert.KernelIdeal.Val.tailK a b = Cert.ReferenceIdeal.RefValue.tailR a b := rfl

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

-- Over the extended reals each program ends with that mean of two stacks of two propagation steps of its own launch contents, and the contents agree on the fourteen arguments.
theorem algebraic : Cert.algebraic_KernelIdeal_ReferenceIdeal := by
  intro m ρ m' ρ' _ hagree
  refine ⟨_, Cert.KernelIdeal.Val.run_value Cert.KernelIdeal.Val.gcs1_arr Cert.KernelIdeal.Val.gcs2_arr Cert.KernelIdeal.Val.gcs3_arr Cert.KernelIdeal.Val.gcs4_arr m ρ, ?_⟩
  refine (θ_run Cert.ReferenceIdeal.defs _ _).mono (fun _ h c => ⟨(h c).1.trans ?_, (h c).2⟩) (Cert.ReferenceIdeal.RefValue.run_spec m' ρ')
  obtain ⟨h0, h1, h2, h3, h4, h5, h6, h7, h8, h9, h10, h11, h12, h13⟩ := hagree c
  rw [h0, h1, h2, h3, h4, h5, h6, h7, h8, h9, h10, h11, h12, h13]
  exact (tail_eq _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
